-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S2x800000 32) (main_v13 : IVec S_ 1) (main_v15 : IVec S800000 32) (main_v16 : IVec S800000 32) : IVec S_ 1 :=
  let main_v17 : IVec S800000 1 := cmpi .sge main_v15 main_v16
  let main_c_5 : IVec S_ 1 := constantI S_ 1 1#1
  let main_v18 : IVec S_ 1 := (fun x v => Host.reduce IntOp.andi x v reducesTo_S800000_S_d0 h_S_) main_v17 main_c_5
  let main_v19 : IVec S_ 1 := andi main_v13 main_v18
  let main_v20 : IVec S1x800000 32 := (extractStridedSlice S1x800000 ![0, 0] · slices_S2x800000_S1x800000_0_0) main_arg3
  let main_v21 : IVec S800000 32 := shapeCast S800000 main_v20 shapeCasts_S1x800000_S800000
  let main_c_6 : IVec S_ 32 := constantI S_ 32 50000#32
  let main_v22 : IVec S800000 32 := broadcastInDim S800000 ![] bcast_S_S800000 main_c_6
  let main_v23 : IVec S800000 1 := cmpi .slt main_v21 main_v22
  let main_c_7 : IVec S_ 1 := constantI S_ 1 1#1
  let main_v24 : IVec S_ 1 := (fun x v => Host.reduce IntOp.andi x v reducesTo_S800000_S_d0 h_S_) main_v23 main_c_7
  let main_v25 : IVec S_ 1 := andi main_v19 main_v24
  main_v25

def fn {F : FTy → Type} [FloatOps F] (main_arg0 : FVec F S50000x64 .f32) (main_arg1 : FVec F S64x64 .f32) (main_arg2 : FVec F S64 .f32) (main_arg3 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x800000 32 := (extractStridedSlice S1x800000 ![0, 0] · slices_S2x800000_S1x800000_0_0) main_arg3
  let main_v15 : IVec S800000 32 := shapeCast S800000 main_v14 shapeCasts_S1x800000_S800000
  let main_c_4 : IVec S_ 32 := constantI S_ 32 0#32
  let main_v16 : IVec S800000 32 := broadcastInDim S800000 ![] bcast_S_S800000 main_c_4
  fn_part1 (F := F) main_arg3 main_v13 main_v15 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50176x64 : Shape := ⟨2, ![50176, 64]⟩
abbrev S850944 : Shape := ⟨1, ![850944]⟩
abbrev S1x850944 : Shape := ⟨2, ![1, 850944]⟩
abbrev S1024x64 : Shape := ⟨2, ![1024, 64]⟩
abbrev S850944x64 : Shape := ⟨2, ![850944, 64]⟩
abbrev S1x1024 : Shape := ⟨2, ![1, 1024]⟩
abbrev S1024x1024 : Shape := ⟨2, ![1024, 1024]⟩
abbrev S1x64 : Shape := ⟨2, ![1, 64]⟩

abbrev nBuf : Space → Nat
  | .hbm => 66
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S2x800000, .i32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S_, .f32⟩
  | .hbm, ⟨46, _⟩ => ⟨S50176x64, .f32⟩
  | .hbm, ⟨47, _⟩ => ⟨S_, .i32⟩
  | .hbm, ⟨48, _⟩ => ⟨S_, .i32⟩
  | .hbm, ⟨49, _⟩ => ⟨S850944, .i32⟩
  | .hbm, ⟨50, _⟩ => ⟨S_, .i32⟩
  | .hbm, ⟨51, _⟩ => ⟨S_, .i32⟩
  | .hbm, ⟨52, _⟩ => ⟨S850944, .i32⟩
  | .hbm, ⟨53, _⟩ => ⟨S_, .i32⟩
  | .hbm, ⟨54, _⟩ => ⟨S_, .f32⟩
  | .hbm, ⟨55, _⟩ => ⟨S850944, .f32⟩
  | .hbm, ⟨56, _⟩ => ⟨S1x850944, .i32⟩
  | .hbm, ⟨57, _⟩ => ⟨S1x850944, .i32⟩
  | .hbm, ⟨58, _⟩ => ⟨S1x850944, .f32⟩
  | .hbm, ⟨59, _⟩ => ⟨S50176x64, .bf16⟩
  | .hbm, ⟨60, _⟩ => ⟨S850944x64, .bf16⟩
  | .hbm, ⟨61, _⟩ => ⟨S50176x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .local _ .vmem, ⟨0, _⟩ => ⟨S1024x64, .f32⟩
  | .local _ .vmem, ⟨1, _⟩ => ⟨S1024x64, .f32⟩
  | .local _ .vmem, ⟨2, _⟩ => ⟨S64x64, .f32⟩
  | .local _ .vmem, ⟨3, _⟩ => ⟨S1024x64, .bf16⟩
  | .local _ .vmem, ⟨4, _⟩ => ⟨S1024x64, .bf16⟩
  | .local _ .vmem, ⟨5, _⟩ => ⟨S1x1024, .i32⟩
  | .local _ .vmem, ⟨6, _⟩ => ⟨S1x1024, .i32⟩
  | .local _ .vmem, ⟨7, _⟩ => ⟨S1x1024, .f32⟩
  | .local _ .vmem, ⟨8, _⟩ => ⟨S1x1024, .f32⟩
  | .local _ .vmem, ⟨9, _⟩ => ⟨S1024x64, .bf16⟩
  | .local _ .vmem, ⟨10, _⟩ => ⟨S1024x64, .bf16⟩
  | .local _ .vmem, ⟨11, _⟩ => ⟨S1024x64, .bf16⟩
  | .local _ .vmem, ⟨12, _⟩ => ⟨S1024x64, .bf16⟩
  | .local _ .vmem, ⟨13, _⟩ => ⟨S1024x64, .f32⟩
  | .local _ .vmem, ⟨14, _⟩ => ⟨S1x1024, .i32⟩
  | .local _ .vmem, ⟨15, _⟩ => ⟨S1x1024, .i32⟩
  | .local _ .vmem, ⟨16, _⟩ => ⟨S1024x64, .bf16⟩
  | .local _ .vmem, ⟨17, _⟩ => ⟨S1024x64, .bf16⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_call1_v0 : Ref sig .tc := ⟨.hbm, 45, rfl⟩
abbrev main_v30 : Ref sig .tc := ⟨.hbm, 46, rfl⟩
abbrev main_c_7 : Ref sig .tc := ⟨.hbm, 47, rfl⟩
abbrev main_call2_v0 : Ref sig .tc := ⟨.hbm, 48, rfl⟩
abbrev main_v31 : Ref sig .tc := ⟨.hbm, 49, rfl⟩
abbrev main_c_8 : Ref sig .tc := ⟨.hbm, 50, rfl⟩
abbrev main_call3_v0 : Ref sig .tc := ⟨.hbm, 51, rfl⟩
abbrev main_v32 : Ref sig .tc := ⟨.hbm, 52, rfl⟩
abbrev main_c_9 : Ref sig .tc := ⟨.hbm, 53, rfl⟩
abbrev main_call4_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 49], ![false, false]⟩

def k1_cond2 (i : grid1.Coords) : BitVec 1 :=
  let arg1 : BitVec 32 := BitVec.ofNat 32 (i 1).val
  let c48_i32 : BitVec 32 := 48#32
  let v27 : BitVec 1 := Scalar.cmpi .eq arg1 c48_i32
  let v28 : BitVec 32 := Scalar.extui v27
  let c0_i32_11 : BitVec 32 := 0#32
  let v29 : BitVec 1 := Scalar.cmpi .ne v28 c0_i32_11
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 831], ![false, false]⟩

def k2_cond2 (i : grid2.Coords) : BitVec 1 :=
  let arg1 : BitVec 32 := BitVec.ofNat 32 (i 1).val
  let c830_i32 : BitVec 32 := 830#32
  let v22 : BitVec 1 := Scalar.cmpi .eq arg1 c830_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S50000x64_S50176x64_01760_000 : S50000x64.Pads (![0, 0] : Fin 2 → Nat) ![176, 0] ![0, 0] S50176x64
  h_S_ : 0 < S_.numel
  pads_S850000_S850944_09440 : S850000.Pads (![0] : Fin 1 → Nat) ![944] ![0] S850944
  shapeCasts_S850944_S1x850944 : S850944.ShapeCasts S1x850944
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S1024x64_S1024x64_0_0 : (Rect.unit (s := S1024x64) ![0, 0] S1024x64.size inb_S1024x64_S1024x64_0_0).PackedRows (EltTy.packing .bf16)
  iota_S1024x1024_d0_w32 : S1024x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  transposes_S1024x1024_p1_0_S1024x1024 : S1024x1024.Transposes [1, 0] S1024x1024
  natLt_1_32 : 1 < 32
  slices_S50176x64_S50000x64_0_0 : S50176x64.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1024x64_S64x64_S1024x64_1_0_0_1_n_n_wf : DotDims.WF S1024x64 S64x64 S1024x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S50176x64.size a
  hwx0_0 : ∀ i : grid0.Coords, EltTy.bits .f32 = 32 ∨ (Rect.block (s := S50176x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S50176x64.size a
  hwx0_2 : ∀ i : grid0.Coords, EltTy.bits .bf16 = 32 ∨ (Rect.block (s := S50176x64) S1024x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x850944.size a
  hwx1_0 : ∀ i : grid1.Coords, EltTy.bits .i32 = 32 ∨ (Rect.block (s := S1x850944) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x850944.size a
  hwx1_1 : ∀ i : grid1.Coords, EltTy.bits .f32 = 32 ∨ (Rect.block (s := S1x850944) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S50176x64.size a
  hwx1_2 : ∀ i : grid1.Coords, EltTy.bits .bf16 = 32 ∨ (Rect.block (s := S50176x64) S1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S850944x64.size a
  hwx1_3 : ∀ i : grid1.Coords, EltTy.bits .bf16 = 32 ∨ (Rect.block (s := S850944x64) S1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x850944.size a
  hwx2_0 : ∀ i : grid2.Coords, EltTy.bits .i32 = 32 ∨ (Rect.block (s := S1x850944) S1x1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S850944x64.size a
  hwx2_1 : ∀ i : grid2.Coords, EltTy.bits .bf16 = 32 ∨ (Rect.block (s := S850944x64) S1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S50176x64.size a
  hwx2_2 : ∀ i : grid2.Coords, EltTy.bits .f32 = 32 ∨ (Rect.block (s := S50176x64) S1024x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v30) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v35) S1x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S2x800000, .i32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.K.Reg0.lean ====
import proofs.«118320_j52716428591833_1_alg».proof.Proof.Gen.Kernel.Launch
import proofs.«118320_j52716428591833_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x64 := Rect.unit (s := S1024x64) ![0, 0] S1024x64.size inb_S1024x64_S1024x64_0_0

abbrev r0_1 : Rect S64x64 := Rect.unit (s := S64x64) ![0, 0] S64x64.size inb_S64x64_S64x64_0_0

noncomputable def out0_2 (x0 : Vec F S1024x64 .f32) (x1 : Vec F S64x64 .f32) : Vec F S1024x64 .bf16 :=
  View.canon [⟨r0_0, k0_pay1 (View.ld x0 r0_0) (View.ld x1 r0_1)⟩]

theorem cover0_2 (p0 : Vec F S1024x64 .bf16) (y : S1024x64.Idx) :
    ∃ pc ∈ ([⟨r0_0, p0⟩] : List (View.Piece (Elt F) S1024x64 .bf16)), y ∈ pc.1.set :=
  View.cover_of_tiled [⟨r0_0, p0⟩] S1024x64.size (by rfl) y

theorem sound_kernel0 (c : Dev nD) (E : Set ℕ) (i : grid0.Coords) (arg1 : Memref sig .tc .vmem S1024x64 .f32) (harg1 : arg1.IsWhole) (arg2 : Memref sig .tc .vmem S64x64 .f32) (harg2 : arg2.IsWhole) (arg3 : Memref sig .tc .vmem S1024x64 .bf16) (harg3 : arg3.IsWhole)
    (x0 : Vec F S1024x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl,
    after0_0, after0_1, after0_2]
  show _ ⊢ wp _ _ _ (cc0__linear_kernel (grid0.coords t) _ (hstage0_0 _) _ (hstage0_1 _) _ (hstage0_2 _)) _
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Regions

end Cert.Kernel.Hand

end
-- ==== Proof.Lib.Grid.lean ====
import Idealize.ShloMosaic.Lib.Pipeline.Kit
import Idealize.ShloMosaic.Lib.WordArith

namespace Cert.Lib.Grid

open Idealize.ShloMosaic Idealize.ShloMosaic.Pipeline

variable {G : Pipeline.Grid}

-- Row-major order: a coordinate whose axes after it hold `s` points is the quotient by `s`, once that is below its bound.
theorem coords_div (a : Fin G.rank) {s n : ℕ} (hs : G.stride a = s) (hN : G.N = n) (hn : n ≤ s * G.bound a) (t : Fin G.N) :
    ((G.coords t) a).val = t.val / s := by
  show t.val / G.stride a % G.bound a = t.val / s
  rw [hs]
  exact Nat.mod_eq_of_lt (Nat.div_lt_of_lt_mul ((lt_of_lt_of_eq t.isLt hN).trans_le hn))

-- The fastest axis: the remainder by its bound.
theorem coords_mod (a : Fin G.rank) {b : ℕ} (hs : G.stride a = 1) (hb : G.bound a = b) (t : Fin G.N) :
    ((G.coords t) a).val = t.val % b := by
  show t.val / G.stride a % G.bound a = t.val % b
  rw [hs, hb, Nat.div_one]

-- A coordinate on an axis of at most 2^32 points is the value of its 32-bit word.
theorem toNat_fin {n : ℕ} (i : Fin n) (hn : n ≤ 2 ^ 32) : (BitVec.ofNat 32 i.val).toNat = i.val :=
  WordArith.toNat_ofNat_of_lt _ (lt_of_lt_of_le i.isLt hn)

-- The body's test "coordinate = constant", as 32-bit words: the comparison's bit, widened, is non-zero exactly when the numbers agree.
theorem cond_iff {n : ℕ} (i : Fin n) (hn : n ≤ 2 ^ 32) {k : ℕ} (hk : k < 2 ^ 32) :
    Scalar.cmpi .ne (Scalar.extui (Scalar.cmpi .eq (BitVec.ofNat 32 i.val) (BitVec.ofNat 32 k))) 0#32 = 1#1 ↔ i.val = k := by
  show BitVec.ofBool ((BitVec.ofBool (BitVec.ofNat 32 i.val == BitVec.ofNat 32 k)).setWidth 32 != 0#32) = 1#1 ↔ i.val = k
  have hb : (BitVec.ofNat 32 i.val == BitVec.ofNat 32 k) = decide (i.val = k) := by
    rw [Bool.eq_iff_iff, beq_iff_eq, decide_eq_true_eq]
    exact ⟨fun h => by have := congrArg BitVec.toNat h; rwa [toNat_fin i hn, WordArith.toNat_ofNat_of_lt _ hk] at this, fun h => h ▸ rfl⟩
  rw [hb]
  by_cases h : i.val = k
  · rw [decide_eq_true h]; exact ⟨fun _ => h, fun _ => by decide⟩
  · rw [decide_eq_false h]; exact ⟨fun h' => absurd h' (by decide), fun e => absurd e h⟩

-- `s` divides the successor of `t` exactly when `t` is last in its run of `s`.
theorem dvd_succ_iff {s : ℕ} (hs : 0 < s) (t : ℕ) : s ∣ t + 1 ↔ t % s = s - 1 := by
  have hr := Nat.mod_lt t hs
  have ht := Nat.div_add_mod t s
  constructor
  · intro h
    have h1 : s ∣ t % s + 1 := (Nat.dvd_add_right (Dvd.intro _ rfl : s ∣ s * (t / s))).mp (by rwa [← Nat.add_assoc, ht])
    have := Nat.le_of_dvd (Nat.succ_pos _) h1
    omega
  · intro h
    exact ⟨t / s + 1, by rw [Nat.mul_add, Nat.mul_one]; omega⟩

-- A block index that is injective in `t / s`, with `s` dividing the number of points, changes (or ends) exactly after `t % s = s - 1`.
theorem flush_iff {sig : RefSig} (w : Window sig G) {s n : ℕ} (hs : 0 < s) (hN : G.N = n) (hd : s ∣ n) (ho : w.isOut = true)
    (f : ℕ → Fin w.shape.rank → ℕ) (hf : f.Injective) (hi : ∀ t : Fin G.N, w.index t = f (t.val / s)) (t : Fin G.N) :
    w.flush t = true ↔ t.val % s = s - 1 := by
  have hq : (t.val + 1) / s = t.val / s ↔ ¬ s ∣ t.val + 1 := by
    rw [Nat.succ_div]; by_cases h : s ∣ t.val + 1 <;> simp [h]
  unfold Window.flush
  rw [ho, Bool.true_and, Bool.or_eq_true, decide_eq_true_eq, decide_eq_true_eq, ← dvd_succ_iff hs]
  constructor
  · rintro (h | ⟨h, hne⟩)
    · rw [h, hN]; exact hd
    · rw [hi, hi] at hne
      exact not_not.mp fun hnd => hne (congrArg f (hq.mpr hnd))
  · intro h
    by_cases hl : t.val + 1 = G.N
    · exact .inl hl
    · refine .inr ⟨Nat.lt_of_le_of_ne (Nat.succ_le_of_lt t.isLt) hl, fun he => ?_⟩
      rw [hi, hi] at he
      exact hq.mp (hf he) h

end Cert.Lib.Grid
-- ==== Proof.K.Grid1.lean ====
import proofs.«118320_j52716428591833_1_alg».proof.Proof.Gen.Kernel.Launch
import proofs.«118320_j52716428591833_1_alg».proof.Proof.Gen.Kernel.Skeleton
import proofs.«118320_j52716428591833_1_alg».proof.Proof.Lib.Grid

namespace Cert.Kernel.Hand

open Idealize.ShloMosaic Idealize.ShloMosaic.TcCoe
open Cert.Kernel Cert.Kernel.Gen Cert.Lib.Grid

theorem lt_N1 (t : Fin grid1.N) : t.val < 40719 := N_1 ▸ t.isLt

theorem coords1_0 (t : Fin grid1.N) : ((grid1.coords t) 0).val = t.val / 49 := coords_div (G := grid1) 0 (by decide) N_1 (by decide) t
theorem coords1_1 (t : Fin grid1.N) : ((grid1.coords t) 1).val = t.val % 49 := coords_mod (G := grid1) 1 (by decide) rfl t

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 49 = 0 := fun t =>
  (cond_iff _ (by decide) (by decide)).trans (by rw [coords1_1 t])
theorem hcond1_1 : ∀ t : Fin cfg1.N, cond1_1 (grid1.coords t) ↔ t.val % 49 = 48 := fun t =>
  (cond_iff _ (by decide) (by decide)).trans (by rw [coords1_1 t])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idle1_3_of_not (i : grid1.Coords) (h : ¬cond1_1 i) : cfg1.idle 3 i = true := by
  show (!(k1_cond2 i == 1#1)) = true
  simpa [cond1_1] using h
theorem idleAt1_3_A : ∀ t : Fin cfg1.N, cond1_0 (grid1.coords t) → ¬cond1_1 (grid1.coords t) → cfg1.idle 3 (grid1.coords t) = true :=
  fun _ _ h => idle1_3_of_not _ h
theorem idleAt1_3_B : ∀ t : Fin cfg1.N, ¬cond1_0 (grid1.coords t) → ¬cond1_1 (grid1.coords t) → cfg1.idle 3 (grid1.coords t) = true :=
  fun _ _ h => idle1_3_of_not _ h
theorem liveAt1_3_C : ∀ t : Fin cfg1.N, ¬cond1_0 (grid1.coords t) → cond1_1 (grid1.coords t) → cfg1.idle 3 (grid1.coords t) = false :=
  fun t _ h => by
    show (!(k1_cond2 (grid1.coords t) == 1#1)) = false
    simpa [cond1_1] using h

theorem index1_0 (t : Fin cfg1.N) : (cfg1.win 0).index t (0 : Fin 2) = 0 ∧ (cfg1.win 0).index t (1 : Fin 2) = t.val / 49 :=
  ⟨rfl, (toNat_fin _ (by decide)).trans (coords1_0 t)⟩
theorem index1_1 (t : Fin cfg1.N) : (cfg1.win 1).index t (0 : Fin 2) = 0 ∧ (cfg1.win 1).index t (1 : Fin 2) = t.val / 49 :=
  ⟨rfl, (toNat_fin _ (by decide)).trans (coords1_0 t)⟩
theorem index1_2 (t : Fin cfg1.N) : (cfg1.win 2).index t (0 : Fin 2) = t.val % 49 ∧ (cfg1.win 2).index t (1 : Fin 2) = 0 :=
  ⟨(toNat_fin _ (by decide)).trans (coords1_1 t), rfl⟩
theorem index1_3 (t : Fin cfg1.N) : (cfg1.win 3).index t (0 : Fin 2) = t.val / 49 ∧ (cfg1.win 3).index t (1 : Fin 2) = 0 :=
  ⟨(toNat_fin _ (by decide)).trans (coords1_0 t), rfl⟩

theorem flush1_3' : ∀ t : Fin cfg1.N, (cfg1.win 3).flush t = true ↔ t.val % 49 = 48 :=
  flush_iff (cfg1.win 3) (s := 49) (by decide) N_1 (by decide) rfl (fun q => ![q, 0]) (fun _ _ h => congrFun h (0 : Fin 2)) fun t =>
    funext fun a => match a with
      | ⟨0, _⟩ => (index1_3 t).1
      | ⟨1, _⟩ => (index1_3 t).2

theorem noFlush1_3_of_not (t : Fin cfg1.N) (h : ¬cond1_1 (grid1.coords t)) : (cfg1.win 3).flush t = false :=
  Bool.eq_false_iff.mpr fun hf => h ((hcond1_1 t).mpr ((flush1_3' t).mp hf))
theorem noFlush1_3_A : ∀ t : Fin cfg1.N, cond1_0 (grid1.coords t) → ¬cond1_1 (grid1.coords t) → (cfg1.win 3).flush t = false :=
  fun t _ h => noFlush1_3_of_not t h
theorem noFlush1_3_B : ∀ t : Fin cfg1.N, ¬cond1_0 (grid1.coords t) → ¬cond1_1 (grid1.coords t) → (cfg1.win 3).flush t = false :=
  fun t _ h => noFlush1_3_of_not t h

end Cert.Kernel.Hand
-- ==== Proof.Lib.Reg2Lib.lean ====
import Idealize.ShloMosaic.Lib.Pipeline.Frame

namespace Cert.Lib.Reg2

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem owns_eq_unread {c : Thread nD τ} {sp : Space} {s : Shape} {e : EltTy} {m : Memref sig c.2.kind sp s e} (h : m.IsWhole)
    (q : PosShare TreeShare) (X : s.Idx → Val e) :
    (owns c m q X : sProp 𝕄) = (m.view.loc c ↦[m.view.set]{q} h.unread X) := by
  have h₁ : (owns c m q X : sProp 𝕄) ⊢ (m.view.loc c ↦[m.view.set]{q} h.unread X) := by
    unfold owns; iintro ⟨%f, %hf, H⟩; obtain rfl := h.eq_unread hf; iexact H
  have h₂ : (m.view.loc c ↦[m.view.set]{q} h.unread X : sProp 𝕄) ⊢ owns c m q (m.view.read Val (h.unread X)) := owns_intro c m q _
  rw [h.read_unread] at h₂
  exact BI.equiv_iff.mp ⟨h₁, h₂⟩

theorem owns_of_cover {c : Thread nD τ} {sp : Space} {s : Shape} {e : EltTy} {m : Memref sig c.2.kind sp s e} {q : PosShare TreeShare}
    {κ' : Kind} {sp' : Space} (v' : View sig κ' sp' s e) {L : List (View.Piece Val s e)} (h : ∀ y, ∃ p ∈ L, y ∈ p.1.set)
    {f : m.view.ty.Contents Val} {f' : v'.ty.Contents Val} :
    (m.view.loc c ↦[m.view.set]{q} m.view.writes Val f L : sProp 𝕄) ⊢ owns c m q (v'.read Val (v'.writes Val f' L)) := by
  unfold owns; iintro H; iexists m.view.writes Val f L; isplitr
  · ipureintro; exact View.read_writes_of_cover _ _ _ _ _ h
  · iexact H

end Cert.Lib.Reg2
-- ==== Proof.K.Reg1Runs.lean ====
import proofs.«118320_j52716428591833_1_alg».proof.Proof.K.Grid1
import proofs.«118320_j52716428591833_1_alg».proof.Proof.Gen.Kernel.Skeleton
import proofs.«118320_j52716428591833_1_alg».proof.Proof.Lib.Reg2Lib
import Idealize.ShloMosaic.Lib.Pipeline.Kit
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe
open Idealize.SL.RA Idealize.SL.BI
open Idealize.SL.BI.BIBase Idealize.SL.Sem
open Cert.Kernel.Gen Cert.Lib.Reg2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Array `w`'s block at grid point `t`, read off `V`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_3 : View sig .tc .vmem S1024x64 .bf16 := (Memref.whole cc1_stg3_0 : Memref sig .tc .vmem S1024x64 .bf16).view
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .bf16 := win1_3.stage (cfg1.slots t 3)
abbrev hs1_3 (t : Fin cfg1.N) : (ms1_3 t).IsWhole := hstage1_3 ((cfg1.slots t 3).cast nbuf1_3)
abbrev scM1_0 : Memref sig .tc .vmem S1024x64 .f32 := Memref.whole cc1_scratch0
abbrev VS1_0 : View sig .tc .vmem S1024x64 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole]; try rfl

section
variable (c : Dev nD) (i : grid1.Coords) (arg2 : Memref sig .tc .vmem S1x1024 .i32) (harg2 : arg2.IsWhole) (arg3 : Memref sig .tc .vmem S1x1024 .f32) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S1024x64 .f32) (harg6 : arg6.IsWhole)

section
variable (hc0 : cond1_0 i) (hc1 : ¬cond1_1 i) (x0 : Vec F S1x1024 .i32) (x1 : Vec F S1x1024 .f32) (x2 : Vec F S1024x64 .bf16)

/-- Node tile 0 of an edge tile: the accumulator becomes the tile's product alone. -/
def kernelRun1_A :
    Σ' (L3 : List (View.Piece (Elt F) S1024x64 .bf16)), { LS0 : List (View.Piece (Elt F) S1024x64 .f32) //
      ∀ (xi3 : Vec F S1024x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread harg2, owns_eq_unread harg3, owns_eq_unread harg4, owns_eq_unread harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

/-- The written rectangles tile the 1024 × 64 block. -/
theorem scover1_A_0 (y : S1024x64.Idx) : ∃ pc ∈ (kernelRun1_A c i arg2 harg2 arg3 harg3 arg4 harg4 arg5 harg5 arg6 harg6 hc0 hc1 x0 x1 x2).2.1, y ∈ pc.1.set :=
  View.cover_of_tiledL _ S1024x64.size (by sl_kernel_rfl) y

def sout1_A_0 : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)
end

section
variable (hc0 : ¬cond1_0 i) (hc1 : ¬cond1_1 i) (x0 : Vec F S1x1024 .i32) (x1 : Vec F S1x1024 .f32) (x2 : Vec F S1024x64 .bf16) (xs0 : Vec F S1024x64 .f32)

/-- Node tiles 1 to 47: the tile's product is added to the accumulator `xs0`. -/
def kernelRun1_B :
    Σ' (L3 : List (View.Piece (Elt F) S1024x64 .bf16)), { LS0 : List (View.Piece (Elt F) S1024x64 .f32) //
      ∀ (xi3 : Vec F S1024x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread harg2, owns_eq_unread harg3, owns_eq_unread harg4, owns_eq_unread harg5, owns_eq_unread harg6]
    iintro ⟨H0, H1, H2, H3, HS0, Hk⟩
    sl_exec (disch := first | exact hc0 | exact hc1)
    sl_step
    iapply Hk
    iframe H0 H1 H2 H3
    iexists _; iexact HS0

theorem scover1_B_0 (y : S1024x64.Idx) : ∃ pc ∈ (kernelRun1_B c i arg2 harg2 arg3 harg3 arg4 harg4 arg5 harg5 arg6 harg6 hc0 hc1 x0 x1 x2 xs0).2.1, y ∈ pc.1.set :=
  View.cover_of_tiledL _ S1024x64.size (by sl_kernel_rfl) y

def sout1_B_0 : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)
end

section
variable (hc0 : ¬cond1_0 i) (hc1 : cond1_1 i) (x0 : Vec F S1x1024 .i32) (x1 : Vec F S1x1024 .f32) (x2 : Vec F S1024x64 .bf16) (xs0 : Vec F S1024x64 .f32)

/-- Node tile 48: the tile's product is added to `xs0`, and the sum, rounded, is the output block. -/
def kernelRun1_C :
    Σ' (L3 : List (View.Piece (Elt F) S1024x64 .bf16)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    rw [owns_eq_unread harg2, owns_eq_unread harg3, owns_eq_unread harg4, owns_eq_unread harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

theorem cover1_C_3 (y : S1024x64.Idx) : ∃ pc ∈ (kernelRun1_C c i arg2 harg2 arg3 harg3 arg4 harg4 arg5 harg5 arg6 harg6 hc0 hc1 x0 x1 x2 xs0).1, y ∈ pc.1.set :=
  View.cover_of_tiledL _ S1024x64.size (by sl_kernel_rfl) y

def out1_C_3 : Vec F S1024x64 .bf16 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (y : S1024x64.Idx) : ∃ pc ∈ (kernelRun1_C c i arg2 harg2 arg3 harg3 arg4 harg4 arg5 harg5 arg6 harg6 hc0 hc1 x0 x1 x2 xs0).2.1, y ∈ pc.1.set :=
  View.cover_of_tiledL _ S1024x64.size (by sl_kernel_rfl) y

def sout1_C_0 : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)
end
end

end Cert.Kernel.Hand

end
-- ==== Proof.K.Reg1.lean ====
import proofs.«118320_j52716428591833_1_alg».proof.Proof.K.Reg1Runs

noncomputable section

namespace Cert.Kernel.Hand

open Idealize.ShloMosaic Idealize.ShloMosaic.TcCoe
open Idealize.SL.RA Idealize.SL.BI
open Idealize.SL.BI.BIBase Idealize.SL.Sem
open Cert.Kernel.Gen Cert.Lib.Reg2
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Grid point `t` with `t % 49 = 0`: the accumulator restarts from the tile's product. -/
abbrev ptA (c : Dev nD) (t : Fin cfg1.N) (h0 : t.val % 49 = 0) (h1 : ¬t.val % 49 = 48) : Vec F S1024x64 .bf16 × Vec F S1024x64 .f32 :=
  (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))

/-- `0 < t % 49 < 48`: the tile's product is added to `acc`. -/
abbrev ptB (c : Dev nD) (t : Fin cfg1.N) (h0 : ¬t.val % 49 = 0) (h1 : ¬t.val % 49 = 48) (acc : Vec F S1024x64 .f32) : Vec F S1024x64 .bf16 × Vec F S1024x64 .f32 :=
  (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) acc)

/-- `t % 49 = 48`: the tile's product is added to `acc`, and the rounded sum is the output block. -/
abbrev ptC (c : Dev nD) (t : Fin cfg1.N) (h0 : ¬t.val % 49 = 0) (h1 : t.val % 49 = 48) (acc : Vec F S1024x64 .f32) : Vec F S1024x64 .bf16 × Vec F S1024x64 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) acc,
   sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) acc)

/-- After grid point `n` the second component is the sum of the products of node tiles `0 … n % 49` of edge tile `n / 49`. -/
def outsAt1 (c : Dev nD) : (n : ℕ) → n < cfg1.N → Vec F S1024x64 .bf16 × Vec F S1024x64 .f32
  | 0, hn => ptA V c ⟨0, hn⟩ (Nat.zero_mod _) (by show ¬0 % 49 = 48; decide)
  | n + 1, hn =>
    if h0 : (n + 1) % 49 = 0 then ptA V c ⟨n + 1, hn⟩ h0 (by show ¬(n + 1) % 49 = 48; omega)
    else if h1 : (n + 1) % 49 = 48 then ptC V c ⟨n + 1, hn⟩ h0 h1 (outsAt1 c n (Nat.lt_of_succ_lt hn)).2
    else ptB V c ⟨n + 1, hn⟩ h0 h1 (outsAt1 c n (Nat.lt_of_succ_lt hn)).2

theorem outsAt1_A (c : Dev nD) (t : Fin cfg1.N) (h0 : t.val % 49 = 0) (h1 : ¬t.val % 49 = 48) :
    outsAt1 V c t.val t.isLt = ptA V c t h0 h1 := by
  obtain ⟨n, hn⟩ := t
  cases n with
  | zero => rfl
  | succ n => exact (dif_pos h0).trans rfl

theorem outsAt1_B (c : Dev nD) (t : Fin cfg1.N) (h0 : ¬t.val % 49 = 0) (h1 : ¬t.val % 49 = 48) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 49 = 0) (h1 : t.val % 49 = 48) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def acc1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem acc1_any (c : Dev nD) (n : ℕ) (h : n ≤ cfg1.N) : acc1 V c n h ⊢ iprop(∃ d, owns (c : Thread nD τ) scM1_0 fullShare d) := by
  cases n with
  | zero => exact .rfl
  | succ n => unfold acc1; iintro H; iexists _; iexact H

theorem acc1_pos (c : Dev nD) (n : ℕ) (h : n ≤ cfg1.N) (hz : n ≠ 0) :
    acc1 V c n h = owns (c : Thread nD τ) scM1_0 fullShare (outsAt1 V c (n - 1) (by omega)).2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := iprop(iprop(acc1 V c t.val (Nat.le_of_lt_succ t.isLt) ∗ rest1 (F := F) c) ∗ (∃ r, prngReg c r))
  q _ := fullShare
  owed _ := 0

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (cc1_kernel (grid1.coords t) (ms1_0 t) (hs1_0 t) (ms1_1 t) (hs1_1 t) (ms1_2 t) (hs1_2 t) (ms1_3 t) (hs1_3 t) scM1_0 (Memref.isWhole_whole _)) (fun _ =>
      iprop((dat1 V c).Φ t.succ ∗ (dat1 V c).owesAt () t.succ ∗ (dat1 V c).leavesExact 0 t ∗ (dat1 V c).leavesExact 1 t ∗ (dat1 V c).leavesExact 2 t ∗ (dat1 V c).leavesExact 3 t)) := by
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ rest1 (F := F) c) ∗ (∃ r, prngReg c r)) from rfl,
    show (dat1 V c).Φ t.castSucc = iprop(iprop(acc1 V c t.val (Nat.le_of_lt t.isLt) ∗ rest1 (F := F) c) ∗ (∃ r, prngReg c r)) from rfl,
    show (dat1 V c).leavesExact 0 t = owns (c : Thread nD τ) (ms1_0 t) fullShare (iblk1 V c 0 t) from by
      unfold Dat.leavesExact; rw [liveAt1_0 t]; rfl,
    show (dat1 V c).leavesExact 1 t = owns (c : Thread nD τ) (ms1_1 t) fullShare (iblk1 V c 1 t) from by
      unfold Dat.leavesExact; rw [liveAt1_1 t]; rfl,
    show (dat1 V c).leavesExact 2 t = owns (c : Thread nD τ) (ms1_2 t) fullShare (iblk1 V c 2 t) from by
      unfold Dat.leavesExact; rw [liveAt1_2 t]; rfl]
  by_cases h0 : t.val % 49 = 0
  · have h1 : ¬t.val % 49 = 48 := by omega
    have hc0 := (hcond1_0 t).mpr h0
    have hc1 : ¬cond1_1 (grid1.coords t) := fun h => h1 ((hcond1_1 t).mp h)
    rw [Dat.leavesExact_idle (dat1 V c) 3 t (idleAt1_3_A t hc0 hc1) (noFlush1_3_A t hc0 hc1), outsAt1_A V c t h0 h1]
    dsimp only; unfold sout1_A_0
    iintro ⟨⟨⟨HS0, HR⟩, Hg⟩, Ho, ⟨%d0, H0⟩, ⟨%d1, H1⟩, ⟨%d2, H2⟩, ⟨%d3, H3⟩⟩
    iapply (kernelRun1_A c _ _ _ _ _ _ _ _ _ _ _ hc0 hc1 _ _ _).2.2 _ Set.univ _
    iframe H0 H1 H2 H3
    isplitl [HS0]; · iapply acc1_any; iexact HS0
    iintro ⟨H0, H1, H2, H3, ⟨%es0, HS0⟩⟩
    iframe HR Hg Ho H0 H1 H2
    isplitl [HS0]; · iapply owns_of_cover VS1_0 (scover1_A_0 c _ _ _ _ _ _ _ _ _ _ _ _ _ _ _ _); iexact HS0
    iexists _; iexact H3
  · have hc0 : ¬cond1_0 (grid1.coords t) := fun h => h0 ((hcond1_0 t).mp h)
    rw [acc1_pos V c _ _ fun hz => h0 (by rw [hz])]
    by_cases h1 : t.val % 49 = 48
    · have hc1 := (hcond1_1 t).mpr h1
      rw [show (dat1 V c).leavesExact 3 t = owns (c : Thread nD τ) (ms1_3 t) fullShare ((dat1 V c).after 3 t) from by
        unfold Dat.leavesExact; rw [liveAt1_3_C t hc0 hc1], after1_3, outsAt1_C V c t h0 h1]
      dsimp only; unfold out1_C_3 sout1_C_0
      iintro ⟨⟨⟨HS0, HR⟩, Hg⟩, Ho, ⟨%d0, H0⟩, ⟨%d1, H1⟩, ⟨%d2, H2⟩, ⟨%d3, H3⟩⟩
      iapply (kernelRun1_C c _ _ _ _ _ _ _ _ _ _ _ hc0 hc1 _ _ _ _).2.2 Set.univ _
      iframe H0 H1 H2 HS0
      isplitl [H3]; · iexists _; iexact H3
      iintro ⟨H0, H1, H2, ⟨%e3, H3⟩, ⟨%es0, HS0⟩⟩
      iframe HR Hg Ho H0 H1 H2
      isplitl [HS0]; · iapply owns_of_cover VS1_0 (scover1_C_0 c _ _ _ _ _ _ _ _ _ _ _ _ _ _ _ _ _); iexact HS0
      iapply owns_of_cover VO1_3 (cover1_C_3 c _ _ _ _ _ _ _ _ _ _ _ _ _ _ _ _ _); iexact H3
    · have hc1 : ¬cond1_1 (grid1.coords t) := fun h => h1 ((hcond1_1 t).mp h)
      rw [Dat.leavesExact_idle (dat1 V c) 3 t (idleAt1_3_B t hc0 hc1) (noFlush1_3_B t hc0 hc1), outsAt1_B V c t h0 h1]
      dsimp only; unfold sout1_B_0
      iintro ⟨⟨⟨HS0, HR⟩, Hg⟩, Ho, ⟨%d0, H0⟩, ⟨%d1, H1⟩, ⟨%d2, H2⟩, ⟨%d3, H3⟩⟩
      iapply (kernelRun1_B c _ _ _ _ _ _ _ _ _ _ _ hc0 hc1 _ _ _ _).2.2 _ Set.univ _
      iframe H0 H1 H2 H3 HS0
      iintro ⟨H0, H1, H2, H3, ⟨%es0, HS0⟩⟩
      iframe HR Hg Ho H0 H1 H2
      isplitl [HS0]; · iapply owns_of_cover VS1_0 (scover1_B_0 c _ _ _ _ _ _ _ _ _ _ _ _ _ _ _ _ _); iexact HS0
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; exact .rfl

theorem hout1 (c : Dev nD) : (dat1 V c).Φ (Fin.last cfg1.N) ⊢ Pipeline.ΦA spec1 c := by
  rw [PhiA1_eq]; exact sep_mono_l (sep_mono_l (acc1_any V c _ _))

end Cert.Kernel.Hand

end
-- ==== Proof.K.Grid2.lean ====
import proofs.«118320_j52716428591833_1_alg».proof.Proof.Gen.Kernel.Launch
import proofs.«118320_j52716428591833_1_alg».proof.Proof.Gen.Kernel.Skeleton
import proofs.«118320_j52716428591833_1_alg».proof.Proof.Lib.Grid

namespace Cert.Kernel.Hand

open Idealize.ShloMosaic Idealize.ShloMosaic.TcCoe
open Cert.Kernel Cert.Kernel.Gen Cert.Lib.Grid

theorem lt_N2 (t : Fin grid2.N) : t.val < 40719 := N_2 ▸ t.isLt

theorem coords2_0 (t : Fin grid2.N) : ((grid2.coords t) 0).val = t.val / 831 := coords_div (G := grid2) 0 (by decide) N_2 (by decide) t
theorem coords2_1 (t : Fin grid2.N) : ((grid2.coords t) 1).val = t.val % 831 := coords_mod (G := grid2) 1 (by decide) rfl t

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem hcond2_0 : ∀ t : Fin cfg2.N, cond2_0 (grid2.coords t) ↔ t.val % 831 = 0 := fun t =>
  (cond_iff _ (by decide) (by decide)).trans (by rw [coords2_1 t])
theorem hcond2_1 : ∀ t : Fin cfg2.N, cond2_1 (grid2.coords t) ↔ t.val % 831 = 830 := fun t =>
  (cond_iff _ (by decide) (by decide)).trans (by rw [coords2_1 t])

theorem liveAt2_0 : ∀ t : Fin cfg2.N, cfg2.idle 0 (grid2.coords t) = false := fun _ => rfl
theorem liveAt2_1 : ∀ t : Fin cfg2.N, cfg2.idle 1 (grid2.coords t) = false := fun _ => rfl

theorem idle2_2_of_not (i : grid2.Coords) (h : ¬cond2_1 i) : cfg2.idle 2 i = true := by
  show (!(k2_cond2 i == 1#1)) = true
  simpa [cond2_1] using h
theorem idleAt2_2_A : ∀ t : Fin cfg2.N, cond2_0 (grid2.coords t) → ¬cond2_1 (grid2.coords t) → cfg2.idle 2 (grid2.coords t) = true :=
  fun _ _ h => idle2_2_of_not _ h
theorem idleAt2_2_B : ∀ t : Fin cfg2.N, ¬cond2_0 (grid2.coords t) → ¬cond2_1 (grid2.coords t) → cfg2.idle 2 (grid2.coords t) = true :=
  fun _ _ h => idle2_2_of_not _ h
theorem liveAt2_2_C : ∀ t : Fin cfg2.N, ¬cond2_0 (grid2.coords t) → cond2_1 (grid2.coords t) → cfg2.idle 2 (grid2.coords t) = false :=
  fun t _ h => by
    show (!(k2_cond2 (grid2.coords t) == 1#1)) = false
    simpa [cond2_1] using h

theorem index2_0 (t : Fin cfg2.N) : (cfg2.win 0).index t (0 : Fin 2) = 0 ∧ (cfg2.win 0).index t (1 : Fin 2) = t.val % 831 :=
  ⟨rfl, (toNat_fin _ (by decide)).trans (coords2_1 t)⟩
theorem index2_1 (t : Fin cfg2.N) : (cfg2.win 1).index t (0 : Fin 2) = t.val % 831 ∧ (cfg2.win 1).index t (1 : Fin 2) = 0 :=
  ⟨(toNat_fin _ (by decide)).trans (coords2_1 t), rfl⟩
theorem index2_2 (t : Fin cfg2.N) : (cfg2.win 2).index t (0 : Fin 2) = t.val / 831 ∧ (cfg2.win 2).index t (1 : Fin 2) = 0 :=
  ⟨(toNat_fin _ (by decide)).trans (coords2_0 t), rfl⟩

theorem flush2_2' : ∀ t : Fin cfg2.N, (cfg2.win 2).flush t = true ↔ t.val % 831 = 830 :=
  flush_iff (cfg2.win 2) (s := 831) (by decide) N_2 (by decide) rfl (fun q => ![q, 0]) (fun _ _ h => congrFun h (0 : Fin 2)) fun t =>
    funext fun a => match a with
      | ⟨0, _⟩ => (index2_2 t).1
      | ⟨1, _⟩ => (index2_2 t).2

theorem noFlush2_2_of_not (t : Fin cfg2.N) (h : ¬cond2_1 (grid2.coords t)) : (cfg2.win 2).flush t = false :=
  Bool.eq_false_iff.mpr fun hf => h ((hcond2_1 t).mpr ((flush2_2' t).mp hf))
theorem noFlush2_2_A : ∀ t : Fin cfg2.N, cond2_0 (grid2.coords t) → ¬cond2_1 (grid2.coords t) → (cfg2.win 2).flush t = false :=
  fun t _ h => noFlush2_2_of_not t h
theorem noFlush2_2_B : ∀ t : Fin cfg2.N, ¬cond2_0 (grid2.coords t) → ¬cond2_1 (grid2.coords t) → (cfg2.win 2).flush t = false :=
  fun t _ h => noFlush2_2_of_not t h

end Cert.Kernel.Hand
-- ==== Proof.K.Reg2Runs.lean ====
import proofs.«118320_j52716428591833_1_alg».proof.Proof.Gen.Kernel.Launch
import proofs.«118320_j52716428591833_1_alg».proof.Proof.Gen.Kernel.Skeleton
import proofs.«118320_j52716428591833_1_alg».proof.Proof.K.Grid2
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118320_j52716428591833_1_alg».proof.Proof.Lib.Reg2Lib

noncomputable section

namespace Cert.Kernel.Hand

open Idealize.ShloMosaic Idealize.ShloMosaic.TcCoe
open Idealize.SL.RA Idealize.SL.BI
open Idealize.SL.BI.BIBase Idealize.SL.Sem
open Cert.Kernel.Gen Cert.Lib.Reg2

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO2_2 : View sig .tc .vmem S1024x64 .f32 := (Memref.whole cc2_stg2_0 : Memref sig .tc .vmem S1024x64 .f32).view
abbrev ms2_0 (t : Fin cfg2.N) : Memref sig .tc .vmem S1x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
abbrev scM2_0 : Memref sig .tc .vmem S1024x64 .f32 := Memref.whole cc2_scratch0
abbrev VS2_0 : View sig .tc .vmem S1024x64 .f32 := scM2_0.view

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA
  rw [Pipeline.scopedRest_split_of_list spec2 c [cc2_scratch0] (by decide) (by decide)]
  simp only [scM2_0, owns_whole]; try rfl

section Runs

variable (c : Dev nD) (i : grid2.Coords) (arg2 : Memref sig .tc .vmem S1x1024 .i32) (harg2 : arg2.IsWhole) (arg3 : Memref sig .tc .vmem S1024x64 .bf16) (harg3 : arg3.IsWhole) (arg4 : Memref sig .tc .vmem S1024x64 .f32) (harg4 : arg4.IsWhole) (arg5 : Memref sig .tc .vmem S1024x64 .f32) (harg5 : arg5.IsWhole)

section
variable (hc0 : cond2_0 i) (hc1 : ¬cond2_1 i) (x0 : Vec F S1x1024 .i32) (x1 : Vec F S1024x64 .bf16)

def kernelRun2_A :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    rw [owns_eq_unread harg2, owns_eq_unread harg3, owns_eq_unread harg4]
    unfold owns
    iintro ⟨H0, H1, H2, ⟨%ds0, %fs0, -, HS0⟩, Hk⟩
    sl_exec (disch := first | exact hc0 | exact hc1)
    sl_step
    iapply Hk
    iframe H0 H1 H2
    iexists _; iexact HS0

theorem scover2_A_0 (y : S1024x64.Idx) : ∃ pc ∈ (kernelRun2_A c i arg2 harg2 arg3 harg3 arg4 harg4 arg5 harg5 hc0 hc1 x0 x1).2.1, y ∈ pc.1.set :=
  View.cover_of_tiledL _ S1024x64.size (by sl_kernel_rfl) y

def sout2_A_0 : Vec F S1024x64 .f32 :=
  VS2_0.read (Elt F) (VS2_0.writes (Elt F) VS2_0.junk (kernelRun2_A c i arg2 harg2 arg3 harg3 arg4 harg4 arg5 harg5 hc0 hc1 x0 x1).2.1)
end

section
variable (hc0 : ¬cond2_0 i) (hc1 : ¬cond2_1 i) (x0 : Vec F S1x1024 .i32) (x1 : Vec F S1024x64 .bf16) (xs0 : Vec F S1024x64 .f32)

def kernelRun2_B :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    rw [owns_eq_unread harg2, owns_eq_unread harg3, owns_eq_unread harg4, owns_eq_unread harg5]
    iintro ⟨H0, H1, H2, HS0, Hk⟩
    sl_exec (disch := first | exact hc0 | exact hc1)
    sl_step
    iapply Hk
    iframe H0 H1 H2
    iexists _; iexact HS0

theorem scover2_B_0 (y : S1024x64.Idx) : ∃ pc ∈ (kernelRun2_B c i arg2 harg2 arg3 harg3 arg4 harg4 arg5 harg5 hc0 hc1 x0 x1 xs0).2.1, y ∈ pc.1.set :=
  View.cover_of_tiledL _ S1024x64.size (by sl_kernel_rfl) y

def sout2_B_0 : Vec F S1024x64 .f32 :=
  VS2_0.read (Elt F) (VS2_0.writes (Elt F) VS2_0.junk (kernelRun2_B c i arg2 harg2 arg3 harg3 arg4 harg4 arg5 harg5 hc0 hc1 x0 x1 xs0).2.1)
end

section
variable (hc0 : ¬cond2_0 i) (hc1 : cond2_1 i) (x0 : Vec F S1x1024 .i32) (x1 : Vec F S1024x64 .bf16) (xs0 : Vec F S1024x64 .f32)

def kernelRun2_C :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    rw [owns_eq_unread harg2, owns_eq_unread harg3, owns_eq_unread harg5]
    unfold owns
    iintro ⟨H0, H1, ⟨%d2, %f2, -, H2⟩, HS0, Hk⟩
    sl_exec (disch := first | exact hc0 | exact hc1)
    sl_step
    iapply Hk
    iframe H0 H1
    isplitl [H2]; · iexists _; iexact H2
    iexists _; iexact HS0

theorem cover2_C_2 (y : S1024x64.Idx) : ∃ pc ∈ (kernelRun2_C c i arg2 harg2 arg3 harg3 arg4 harg4 arg5 harg5 hc0 hc1 x0 x1 xs0).1, y ∈ pc.1.set :=
  View.cover_of_tiledL _ S1024x64.size (by sl_kernel_rfl) y

def out2_C_2 : Vec F S1024x64 .f32 :=
  VO2_2.read (Elt F) (VO2_2.writes (Elt F) VO2_2.junk (kernelRun2_C c i arg2 harg2 arg3 harg3 arg4 harg4 arg5 harg5 hc0 hc1 x0 x1 xs0).1)

theorem scover2_C_0 (y : S1024x64.Idx) : ∃ pc ∈ (kernelRun2_C c i arg2 harg2 arg3 harg3 arg4 harg4 arg5 harg5 hc0 hc1 x0 x1 xs0).2.1, y ∈ pc.1.set :=
  View.cover_of_tiledL _ S1024x64.size (by sl_kernel_rfl) y

def sout2_C_0 : Vec F S1024x64 .f32 :=
  VS2_0.read (Elt F) (VS2_0.writes (Elt F) VS2_0.junk (kernelRun2_C c i arg2 harg2 arg3 harg3 arg4 harg4 arg5 harg5 hc0 hc1 x0 x1 xs0).2.1)
end

end Runs

end Cert.Kernel.Hand

end
-- ==== Proof.K.Reg2.lean ====
import proofs.«118320_j52716428591833_1_alg».proof.Proof.K.Reg2Runs

noncomputable section

namespace Cert.Kernel.Hand

open Idealize.ShloMosaic Idealize.ShloMosaic.TcCoe
open Idealize.SL.RA Idealize.SL.BI
open Idealize.SL.BI.BIBase Idealize.SL.Sem
open Cert.Kernel.Gen Cert.Lib.Reg2
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev pt2A (c : Dev nD) (t : Fin cfg2.N) (h0 : t.val % 831 = 0) (h1 : ¬t.val % 831 = 830) : Vec F S1024x64 .f32 × Vec F S1024x64 .f32 :=
  (VO2_2.read (Elt F) VO2_2.junk, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

abbrev pt2B (c : Dev nD) (t : Fin cfg2.N) (h0 : ¬t.val % 831 = 0) (h1 : ¬t.val % 831 = 830) (acc : Vec F S1024x64 .f32) : Vec F S1024x64 .f32 × Vec F S1024x64 .f32 :=
  (VO2_2.read (Elt F) VO2_2.junk, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) acc)

abbrev pt2C (c : Dev nD) (t : Fin cfg2.N) (h0 : ¬t.val % 831 = 0) (h1 : t.val % 831 = 830) (acc : Vec F S1024x64 .f32) : Vec F S1024x64 .f32 × Vec F S1024x64 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) acc, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) acc)

def outsAt2 (c : Dev nD) : (n : ℕ) → n < cfg2.N → Vec F S1024x64 .f32 × Vec F S1024x64 .f32
  | 0, hn => pt2A V c ⟨0, hn⟩ (Nat.zero_mod _) (by show ¬0 % 831 = 830; decide)
  | n + 1, hn =>
    if h0 : (n + 1) % 831 = 0 then pt2A V c ⟨n + 1, hn⟩ h0 (by show ¬(n + 1) % 831 = 830; omega)
    else if h1 : (n + 1) % 831 = 830 then pt2C V c ⟨n + 1, hn⟩ h0 h1 (outsAt2 c n (Nat.lt_of_succ_lt hn)).2
    else pt2B V c ⟨n + 1, hn⟩ h0 h1 (outsAt2 c n (Nat.lt_of_succ_lt hn)).2

theorem outsAt2_A (c : Dev nD) (t : Fin cfg2.N) (h0 : t.val % 831 = 0) (h1 : ¬t.val % 831 = 830) :
    outsAt2 V c t.val t.isLt = pt2A V c t h0 h1 := by
  obtain ⟨n, hn⟩ := t
  cases n with
  | zero => rfl
  | succ n => exact (dif_pos h0).trans rfl

theorem outsAt2_B (c : Dev nD) (t : Fin cfg2.N) (h0 : ¬t.val % 831 = 0) (h1 : ¬t.val % 831 = 830) :
    outsAt2 V c t.val t.isLt = pt2B V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 831 = 0) (h1 : t.val % 831 = 830) :
    outsAt2 V c t.val t.isLt = pt2C V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def acc2 (c : Dev nD) : (n : ℕ) → n ≤ cfg2.N → sProp 𝕄
  | 0, _ => iprop(∃ d, owns (c : Thread nD τ) scM2_0 fullShare d)
  | n + 1, hn => owns (c : Thread nD τ) scM2_0 fullShare (outsAt2 V c n hn).2

theorem acc2_any (c : Dev nD) (n : ℕ) (h : n ≤ cfg2.N) : acc2 V c n h ⊢ iprop(∃ d, owns (c : Thread nD τ) scM2_0 fullShare d) := by
  cases n with
  | zero => exact .rfl
  | succ n => unfold acc2; iintro H; iexists _; iexact H

theorem acc2_pos (c : Dev nD) (n : ℕ) (h : n ≤ cfg2.N) (hz : n ≠ 0) :
    acc2 V c n h = owns (c : Thread nD τ) scM2_0 fullShare (outsAt2 V c (n - 1) (by omega)).2 := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := iprop(iprop(acc2 V c t.val (Nat.le_of_lt_succ t.isLt) ∗ rest2 (F := F) c) ∗ (∃ r, prngReg c r))
  q _ := fullShare
  owed _ := 0

theorem after2_2 (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (cc2_kernel (grid2.coords t) (ms2_0 t) (hs2_0 t) (ms2_1 t) (hs2_1 t) (ms2_2 t) (hs2_2 t) scM2_0 (Memref.isWhole_whole _)) (fun _ =>
      iprop((dat2 V c).Φ t.succ ∗ (dat2 V c).owesAt () t.succ ∗ (dat2 V c).leavesExact 0 t ∗ (dat2 V c).leavesExact 1 t ∗ (dat2 V c).leavesExact 2 t)) := by
  simp only [before2_0, before2_1]
  rw [show (dat2 V c).owesAt () t.succ = (dat2 V c).owesAt () t.castSucc from rfl,
    show (dat2 V c).Φ t.succ = iprop(iprop(owns (c : Thread nD τ) scM2_0 fullShare (outsAt2 V c t.val t.isLt).2 ∗ rest2 (F := F) c) ∗ (∃ r, prngReg c r)) from rfl,
    show (dat2 V c).Φ t.castSucc = iprop(iprop(acc2 V c t.val (Nat.le_of_lt t.isLt) ∗ rest2 (F := F) c) ∗ (∃ r, prngReg c r)) from rfl,
    show (dat2 V c).leavesExact 0 t = owns (c : Thread nD τ) (ms2_0 t) fullShare (iblk2 V c 0 t) from by
      unfold Dat.leavesExact; rw [liveAt2_0 t]; rfl,
    show (dat2 V c).leavesExact 1 t = owns (c : Thread nD τ) (ms2_1 t) fullShare (iblk2 V c 1 t) from by
      unfold Dat.leavesExact; rw [liveAt2_1 t]; rfl]
  by_cases h0 : t.val % 831 = 0
  · have h1 : ¬t.val % 831 = 830 := by omega
    have hc0 := (hcond2_0 t).mpr h0
    have hc1 : ¬cond2_1 (grid2.coords t) := fun h => h1 ((hcond2_1 t).mp h)
    rw [Dat.leavesExact_idle (dat2 V c) 2 t (idleAt2_2_A t hc0 hc1) (noFlush2_2_A t hc0 hc1), outsAt2_A V c t h0 h1]
    dsimp only; unfold sout2_A_0
    iintro ⟨⟨⟨HS0, HR⟩, Hg⟩, Ho, ⟨%d0, H0⟩, ⟨%d1, H1⟩, ⟨%d2, H2⟩⟩
    iapply (kernelRun2_A c _ _ _ _ _ _ _ _ _ hc0 hc1 _ _).2.2 _ Set.univ _
    iframe H0 H1 H2
    isplitl [HS0]; · iapply acc2_any; iexact HS0
    iintro ⟨H0, H1, H2, ⟨%es0, HS0⟩⟩
    iframe HR Hg Ho H0 H1
    isplitl [HS0]; · iapply owns_of_cover VS2_0 (scover2_A_0 c _ _ _ _ _ _ _ _ _ _ _ _ _); iexact HS0
    iexists _; iexact H2
  · have hc0 : ¬cond2_0 (grid2.coords t) := fun h => h0 ((hcond2_0 t).mp h)
    rw [acc2_pos V c _ _ fun hz => h0 (by rw [hz])]
    by_cases h1 : t.val % 831 = 830
    · have hc1 := (hcond2_1 t).mpr h1
      rw [show (dat2 V c).leavesExact 2 t = owns (c : Thread nD τ) (ms2_2 t) fullShare ((dat2 V c).after 2 t) from by
        unfold Dat.leavesExact; rw [liveAt2_2_C t hc0 hc1], after2_2, outsAt2_C V c t h0 h1]
      dsimp only; unfold out2_C_2 sout2_C_0
      iintro ⟨⟨⟨HS0, HR⟩, Hg⟩, Ho, ⟨%d0, H0⟩, ⟨%d1, H1⟩, ⟨%d2, H2⟩⟩
      iapply (kernelRun2_C c _ _ _ _ _ _ _ _ _ hc0 hc1 _ _ _).2.2 Set.univ _
      iframe H0 H1 HS0
      isplitl [H2]; · iexists _; iexact H2
      iintro ⟨H0, H1, ⟨%e2, H2⟩, ⟨%es0, HS0⟩⟩
      iframe HR Hg Ho H0 H1
      isplitl [HS0]; · iapply owns_of_cover VS2_0 (scover2_C_0 c _ _ _ _ _ _ _ _ _ _ _ _ _ _); iexact HS0
      iapply owns_of_cover VO2_2 (cover2_C_2 c _ _ _ _ _ _ _ _ _ _ _ _ _ _); iexact H2
    · have hc1 : ¬cond2_1 (grid2.coords t) := fun h => h1 ((hcond2_1 t).mp h)
      rw [Dat.leavesExact_idle (dat2 V c) 2 t (idleAt2_2_B t hc0 hc1) (noFlush2_2_B t hc0 hc1), outsAt2_B V c t h0 h1]
      dsimp only; unfold sout2_B_0
      iintro ⟨⟨⟨HS0, HR⟩, Hg⟩, Ho, ⟨%d0, H0⟩, ⟨%d1, H1⟩, ⟨%d2, H2⟩⟩
      iapply (kernelRun2_B c _ _ _ _ _ _ _ _ _ hc0 hc1 _ _ _).2.2 _ Set.univ _
      iframe H0 H1 H2 HS0
      iintro ⟨H0, H1, H2, ⟨%es0, HS0⟩⟩
      iframe HR Hg Ho H0 H1
      isplitl [HS0]; · iapply owns_of_cover VS2_0 (scover2_B_0 c _ _ _ _ _ _ _ _ _ _ _ _ _ _); iexact HS0
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq]; exact .rfl

theorem hout2 (c : Dev nD) : (dat2 V c).Φ (Fin.last cfg2.N) ⊢ Pipeline.ΦA spec2 c := by
  rw [PhiA2_eq]; exact sep_mono_l (sep_mono_l (acc2_any V c _ _))

end Cert.Kernel.Hand

end
-- ==== Proof.K.RunAll.lean ====
import proofs.«118320_j52716428591833_1_alg».proof.Proof.Gen.Kernel.Regions
import proofs.«118320_j52716428591833_1_alg».proof.Proof.K.Reg0
import proofs.«118320_j52716428591833_1_alg».proof.Proof.K.Reg1
import proofs.«118320_j52716428591833_1_alg».proof.Proof.K.Reg2

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VT11 : (c : Dev nD) → (b : Ref sig .tc) → Buf (Elt F) ((c : Thread nD τ).loc b) := fun c b => V11 m c b

def W12 (c : Dev nD) : Valuation τ sig (Elt F) :=
  Pipeline.withArrays spec0 c (V11 m c) fun w => (dat0 (VT11 m) c).arrAt w cfg0.N
theorem W12_arr (c : Dev nD) (w : Fin cfg0.W) :
    W12 m c (Proc.devRef .tc (Pipeline.arrRef spec0 w)) = (dat0 (VT11 m) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m c (Proc.devRef .tc b) = V11 m c (Proc.devRef .tc b) := by
  unfold W12; exact Pipeline.withArrays_of_ne spec0 c _ _ b hb

abbrev VT12 : (c : Dev nD) → (b : Ref sig .tc) → Buf (Elt F) ((c : Thread nD τ).loc b) := fun c b => W12 m c b

def W13 (c : Dev nD) : Valuation τ sig (Elt F) :=
  Pipeline.withArrays spec1 c (W12 m c) fun w => (dat1 (VT12 m) c).arrAt w cfg1.N
theorem W13_arr (c : Dev nD) (w : Fin cfg1.W) :
    W13 m c (Proc.devRef .tc (Pipeline.arrRef spec1 w)) = (dat1 (VT12 m) c).arrAt w cfg1.N := by
  unfold W13; exact Pipeline.withArrays_arr spec1 launch1.win.arr_inj c _ _ w
theorem W13_of_ne (c : Dev nD) (b : Ref sig .tc) (hb : ∀ w, Pipeline.arrRef spec1 w ≠ b) :
    W13 m c (Proc.devRef .tc b) = W12 m c (Proc.devRef .tc b) := by
  unfold W13; exact Pipeline.withArrays_of_ne spec1 c _ _ b hb

abbrev VT13 : (c : Dev nD) → (b : Ref sig .tc) → Buf (Elt F) ((c : Thread nD τ).loc b) := fun c b => W13 m c b

def W14 (c : Dev nD) : Valuation τ sig (Elt F) :=
  Pipeline.withArrays spec2 c (W13 m c) fun w => (dat2 (VT13 m) c).arrAt w cfg2.N
theorem W14_arr (c : Dev nD) (w : Fin cfg2.W) :
    W14 m c (Proc.devRef .tc (Pipeline.arrRef spec2 w)) = (dat2 (VT13 m) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m c (Proc.devRef .tc b) = W13 m c (Proc.devRef .tc b) := by
  unfold W14; exact Pipeline.withArrays_of_ne spec2 c _ _ b hb

abbrev W15 (c : Dev nD) : Valuation τ sig (Elt F) := StableHlo.after hostOps3 (W14 m c)

def pdats : (p : Fin 3) → (c : Dev nD) → Dat τ (Elt F) Unit ℕ (UR sig nD τ) ℕ (Pipeline.pin (pcfgs (F := F)) adm p) c
  | ⟨0, _⟩ => fun c => dat0 (VT11 m) c
  | ⟨1, _⟩ => fun c => dat1 (VT12 m) c
  | ⟨2, _⟩ => fun c => dat2 (VT13 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VT11 m) c).loose
  hwaits := Pipeline.hwaits_of_owed_zero _ _ _ _ L lv 0 fun _ _ => rfl
  pre c := iprop(StableHlo.held (c : Thread nD τ) (Pipeline.ucRefs τ sig) (V11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec0 c (VT11 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VT11 m c) fun _ => rfl
    rw [Pipeline.unscopedBufs_held] at hsplit
    iintro ⟨⟨Hub, Hp, ⟨%W, HO⟩⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩
    iframe
  hout c := by
    rw [Pipeline.ownSems0_none, show (pdats m 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VT11 m c) (VT12 m c) ((pdats m 0 c).arrAt · cfg0.N) (fun w => (W12_arr m c w).symm)
      (fun b hb => W12_of_ne m c b fun w e => hb (Finset.mem_image.mpr ⟨w, Finset.mem_univ _, e⟩))
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VT12 m) c).loose
  hwaits := Pipeline.hwaits_of_owed_zero _ _ _ _ L lv 1 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec1 c (VT12 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VT12 m c) fun _ => rfl
    rw [Pipeline.unscopedBufs_held] at hsplit
    iintro ⟨⟨Hub, Hp, ⟨%W, HO⟩⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    refine BIBase.Entails.trans ?_ (hin1 (VT12 m) c)
    unfold Pipeline.ΦA
    iintro ⟨Hp, -, Hr⟩
    iframe
  hout c := by
    refine BIBase.Entails.trans (hout1 (VT12 m) c) ?_
    rw [Pipeline.ownSems0_none]; unfold Pipeline.ΦA
    iintro ⟨Hr, Hp⟩
    iframe; iempintro
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VT12 m c) (VT13 m c) ((pdats m 1 c).arrAt · cfg1.N) (fun w => (W13_arr m c w).symm)
      (fun b hb => W13_of_ne m c b fun w e => hb (Finset.mem_image.mpr ⟨w, Finset.mem_univ _, e⟩))
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VT13 m) c).loose
  hwaits := Pipeline.hwaits_of_owed_zero _ _ _ _ L lv 2 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec2 c (VT13 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VT13 m c) fun _ => rfl
    rw [Pipeline.unscopedBufs_held] at hsplit
    iintro ⟨⟨Hub, Hp, ⟨%W, HO⟩⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    refine BIBase.Entails.trans ?_ (hin2 (VT13 m) c)
    unfold Pipeline.ΦA
    iintro ⟨Hp, -, Hr⟩
    iframe
  hout c := by
    refine BIBase.Entails.trans (hout2 (VT13 m) c) ?_
    rw [Pipeline.ownSems0_none]; unfold Pipeline.ΦA
    iintro ⟨Hr, Hp⟩
    iframe; iempintro
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VT13 m c) (fun b => W14 m c b) ((pdats m 2 c).arrAt · cfg2.N) (fun w => (W14_arr m c w).symm)
      (fun b hb => W14_of_ne m c b fun w e => hb (Finset.mem_image.mpr ⟨w, Finset.mem_univ _, e⟩))
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .region (reg0 m), .region (reg1 m), .region (reg2 m),
    .host (hseg hostOps3 hostOps3_sub hostOps3_fresh (W14 m)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W15 m c))
    (hch := fun c => ⟨.rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨Hh, HSI⟩
      unfold StableHlo.held
      imodintro
      iapply (pointsTo_read_all (Pipeline.ucRefs τ sig) (fun b => (((c : Thread nD τ)).1, b)) (W15 m c) s')
      iframe)
    (hQ := fun s h c => h c)

theorem W15_of (c : Dev nD) (r : Ref sig .tc) (h3 : r ∉ hostOps3_W) (h2 : ∀ w, Pipeline.arrRef spec2 w ≠ r)
    (h1 : ∀ w, Pipeline.arrRef spec1 w ≠ r) (h0 : W12 m c (Proc.devRef .tc r) = V11 m c r)
    (h : r ∉ hostOps0_10_W ∧ r ∉ hostOps0_9_W ∧ r ∉ hostOps0_8_W ∧ r ∉ hostOps0_7_W ∧ r ∉ hostOps0_6_W ∧ r ∉ hostOps0_5_W
      ∧ r ∉ hostOps0_4_W ∧ r ∉ hostOps0_3_W ∧ r ∉ hostOps0_2_W ∧ r ∉ hostOps0_1_W ∧ r ∉ hostOps0_W) :
    W15 m c (Proc.devRef .tc r) = m ((c : Thread nD τ).loc r) := by
  obtain ⟨a10, a9, a8, a7, a6, a5, a4, a3, a2, a1, a0⟩ := h
  exact (StableHlo.after_of_writes_sub hostOps3 _ hostOps3_writes h3).trans <| (W14_of_ne m c r h2).trans <|
    (W13_of_ne m c r h1).trans <| h0.trans <| (V11_of m c r a10).trans <| (V10_of m c r a9).trans <|
    (V9_of m c r a8).trans <| (V8_of m c r a7).trans <| (V7_of m c r a6).trans <| (V6_of m c r a5).trans <|
    (V5_of m c r a4).trans <| (V4_of m c r a3).trans <| (V3_of m c r a2).trans <| (V2_of m c r a1).trans <|
    (V1_of m c r a0).trans rfl

theorem run_val : θ_run defs (onTc (τ := τ) (main (F := F))) ⟨m, fun _ => 0, ρ⟩ (fun r => ∀ c : Dev nD,
      r.2.mem ((c.tc : Thread nD τ).loc main_v43) = W15 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v43 (by decide)),
     (h c _ (mem_uc main_arg0 (by decide))).trans (W15_of m c main_arg0 (by decide) (by decide) (by decide) (W12_of_ne m c _ (by decide)) (by decide)),
     (h c _ (mem_uc main_arg1 (by decide))).trans (W15_of m c main_arg1 (by decide) (by decide) (by decide)
       ((W12_arr m c 1).trans (((dat0 (VT11 m) c).arrAt_in 1 rfl _).trans (A_eq0 (VT11 m) c 1))) (by decide)),
     (h c _ (mem_uc main_arg2 (by decide))).trans (W15_of m c main_arg2 (by decide) (by decide) (by decide) (W12_of_ne m c _ (by decide)) (by decide)),
     (h c _ (mem_uc main_arg3 (by decide))).trans (W15_of m c main_arg3 (by decide) (by decide) (by decide) (W12_of_ne m c _ (by decide)) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_val m ρ)

end Cert.Kernel.Hand

end
-- ==== Proof.KI.Reg0.lean ====
import proofs.«118320_j52716428591833_1_alg».proof.Proof.Gen.KernelIdeal.Launch
import proofs.«118320_j52716428591833_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x64 := Rect.unit (s := S1024x64) ![0, 0] S1024x64.size inb_S1024x64_S1024x64_0_0

abbrev r0_1 : Rect S64x64 := Rect.unit (s := S64x64) ![0, 0] S64x64.size inb_S64x64_S64x64_0_0

noncomputable def out0_2 (x0 : Vec F S1024x64 .f32) (x1 : Vec F S64x64 .f32) : Vec F S1024x64 .bf16 :=
  View.canon [⟨r0_0, k0_pay1 (View.ld x0 r0_0) (View.ld x1 r0_1)⟩]

theorem cover0_2 (p0 : Vec F S1024x64 .bf16) (y : S1024x64.Idx) :
    ∃ pc ∈ ([⟨r0_0, p0⟩] : List (View.Piece (Elt F) S1024x64 .bf16)), y ∈ pc.1.set :=
  View.cover_of_tiled [⟨r0_0, p0⟩] S1024x64.size (by rfl) y

theorem sound_kernel0 (c : Dev nD) (E : Set ℕ) (i : grid0.Coords) (arg1 : Memref sig .tc .vmem S1024x64 .f32) (harg1 : arg1.IsWhole) (arg2 : Memref sig .tc .vmem S64x64 .f32) (harg2 : arg2.IsWhole) (arg3 : Memref sig .tc .vmem S1024x64 .bf16) (harg3 : arg3.IsWhole)
    (x0 : Vec F S1024x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl,
    after0_0, after0_1, after0_2]
  show _ ⊢ wp _ _ _ (cc0__linear_kernel (grid0.coords t) _ (hstage0_0 _) _ (hstage0_1 _) _ (hstage0_2 _)) _
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Regions

end Cert.KernelIdeal.Hand

end
-- ==== Proof.KI.Grid1.lean ====
import proofs.«118320_j52716428591833_1_alg».proof.Proof.Gen.KernelIdeal.Launch
import proofs.«118320_j52716428591833_1_alg».proof.Proof.Gen.KernelIdeal.Skeleton
import proofs.«118320_j52716428591833_1_alg».proof.Proof.Lib.Grid

namespace Cert.KernelIdeal.Hand

open Idealize.ShloMosaic Idealize.ShloMosaic.TcCoe
open Cert.KernelIdeal Cert.KernelIdeal.Gen Cert.Lib.Grid

theorem lt_N1 (t : Fin grid1.N) : t.val < 40719 := N_1 ▸ t.isLt

theorem coords1_0 (t : Fin grid1.N) : ((grid1.coords t) 0).val = t.val / 49 := coords_div (G := grid1) 0 (by decide) N_1 (by decide) t
theorem coords1_1 (t : Fin grid1.N) : ((grid1.coords t) 1).val = t.val % 49 := coords_mod (G := grid1) 1 (by decide) rfl t

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 49 = 0 := fun t =>
  (cond_iff _ (by decide) (by decide)).trans (by rw [coords1_1 t])
theorem hcond1_1 : ∀ t : Fin cfg1.N, cond1_1 (grid1.coords t) ↔ t.val % 49 = 48 := fun t =>
  (cond_iff _ (by decide) (by decide)).trans (by rw [coords1_1 t])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idle1_3_of_not (i : grid1.Coords) (h : ¬cond1_1 i) : cfg1.idle 3 i = true := by
  show (!(k1_cond2 i == 1#1)) = true
  simpa [cond1_1] using h
theorem idleAt1_3_A : ∀ t : Fin cfg1.N, cond1_0 (grid1.coords t) → ¬cond1_1 (grid1.coords t) → cfg1.idle 3 (grid1.coords t) = true :=
  fun _ _ h => idle1_3_of_not _ h
theorem idleAt1_3_B : ∀ t : Fin cfg1.N, ¬cond1_0 (grid1.coords t) → ¬cond1_1 (grid1.coords t) → cfg1.idle 3 (grid1.coords t) = true :=
  fun _ _ h => idle1_3_of_not _ h
theorem liveAt1_3_C : ∀ t : Fin cfg1.N, ¬cond1_0 (grid1.coords t) → cond1_1 (grid1.coords t) → cfg1.idle 3 (grid1.coords t) = false :=
  fun t _ h => by
    show (!(k1_cond2 (grid1.coords t) == 1#1)) = false
    simpa [cond1_1] using h

theorem index1_0 (t : Fin cfg1.N) : (cfg1.win 0).index t (0 : Fin 2) = 0 ∧ (cfg1.win 0).index t (1 : Fin 2) = t.val / 49 :=
  ⟨rfl, (toNat_fin _ (by decide)).trans (coords1_0 t)⟩
theorem index1_1 (t : Fin cfg1.N) : (cfg1.win 1).index t (0 : Fin 2) = 0 ∧ (cfg1.win 1).index t (1 : Fin 2) = t.val / 49 :=
  ⟨rfl, (toNat_fin _ (by decide)).trans (coords1_0 t)⟩
theorem index1_2 (t : Fin cfg1.N) : (cfg1.win 2).index t (0 : Fin 2) = t.val % 49 ∧ (cfg1.win 2).index t (1 : Fin 2) = 0 :=
  ⟨(toNat_fin _ (by decide)).trans (coords1_1 t), rfl⟩
theorem index1_3 (t : Fin cfg1.N) : (cfg1.win 3).index t (0 : Fin 2) = t.val / 49 ∧ (cfg1.win 3).index t (1 : Fin 2) = 0 :=
  ⟨(toNat_fin _ (by decide)).trans (coords1_0 t), rfl⟩

theorem flush1_3' : ∀ t : Fin cfg1.N, (cfg1.win 3).flush t = true ↔ t.val % 49 = 48 :=
  flush_iff (cfg1.win 3) (s := 49) (by decide) N_1 (by decide) rfl (fun q => ![q, 0]) (fun _ _ h => congrFun h (0 : Fin 2)) fun t =>
    funext fun a => match a with
      | ⟨0, _⟩ => (index1_3 t).1
      | ⟨1, _⟩ => (index1_3 t).2

theorem noFlush1_3_of_not (t : Fin cfg1.N) (h : ¬cond1_1 (grid1.coords t)) : (cfg1.win 3).flush t = false :=
  Bool.eq_false_iff.mpr fun hf => h ((hcond1_1 t).mpr ((flush1_3' t).mp hf))
theorem noFlush1_3_A : ∀ t : Fin cfg1.N, cond1_0 (grid1.coords t) → ¬cond1_1 (grid1.coords t) → (cfg1.win 3).flush t = false :=
  fun t _ h => noFlush1_3_of_not t h
theorem noFlush1_3_B : ∀ t : Fin cfg1.N, ¬cond1_0 (grid1.coords t) → ¬cond1_1 (grid1.coords t) → (cfg1.win 3).flush t = false :=
  fun t _ h => noFlush1_3_of_not t h

end Cert.KernelIdeal.Hand
-- ==== Proof.KI.Reg1Runs.lean ====
import proofs.«118320_j52716428591833_1_alg».proof.Proof.KI.Grid1
import proofs.«118320_j52716428591833_1_alg».proof.Proof.Gen.KernelIdeal.Skeleton
import proofs.«118320_j52716428591833_1_alg».proof.Proof.Lib.Reg2Lib
import Idealize.ShloMosaic.Lib.Pipeline.Kit
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe
open Idealize.SL.RA Idealize.SL.BI
open Idealize.SL.BI.BIBase Idealize.SL.Sem
open Cert.KernelIdeal.Gen Cert.Lib.Reg2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Array `w`'s block at grid point `t`, read off `V`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_3 : View sig .tc .vmem S1024x64 .bf16 := (Memref.whole cc1_stg3_0 : Memref sig .tc .vmem S1024x64 .bf16).view
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .bf16 := win1_3.stage (cfg1.slots t 3)
abbrev hs1_3 (t : Fin cfg1.N) : (ms1_3 t).IsWhole := hstage1_3 ((cfg1.slots t 3).cast nbuf1_3)
abbrev scM1_0 : Memref sig .tc .vmem S1024x64 .f32 := Memref.whole cc1_scratch0
abbrev VS1_0 : View sig .tc .vmem S1024x64 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole]; try rfl

section
variable (c : Dev nD) (i : grid1.Coords) (arg2 : Memref sig .tc .vmem S1x1024 .i32) (harg2 : arg2.IsWhole) (arg3 : Memref sig .tc .vmem S1x1024 .f32) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S1024x64 .f32) (harg6 : arg6.IsWhole)

section
variable (hc0 : cond1_0 i) (hc1 : ¬cond1_1 i) (x0 : Vec F S1x1024 .i32) (x1 : Vec F S1x1024 .f32) (x2 : Vec F S1024x64 .bf16)

/-- Node tile 0 of an edge tile: the accumulator becomes the tile's product alone. -/
def kernelRun1_A :
    Σ' (L3 : List (View.Piece (Elt F) S1024x64 .bf16)), { LS0 : List (View.Piece (Elt F) S1024x64 .f32) //
      ∀ (xi3 : Vec F S1024x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread harg2, owns_eq_unread harg3, owns_eq_unread harg4, owns_eq_unread harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

/-- The written rectangles tile the 1024 × 64 block. -/
theorem scover1_A_0 (y : S1024x64.Idx) : ∃ pc ∈ (kernelRun1_A c i arg2 harg2 arg3 harg3 arg4 harg4 arg5 harg5 arg6 harg6 hc0 hc1 x0 x1 x2).2.1, y ∈ pc.1.set :=
  View.cover_of_tiledL _ S1024x64.size (by sl_kernel_rfl) y

def sout1_A_0 : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)
end

section
variable (hc0 : ¬cond1_0 i) (hc1 : ¬cond1_1 i) (x0 : Vec F S1x1024 .i32) (x1 : Vec F S1x1024 .f32) (x2 : Vec F S1024x64 .bf16) (xs0 : Vec F S1024x64 .f32)

/-- Node tiles 1 to 47: the tile's product is added to the accumulator `xs0`. -/
def kernelRun1_B :
    Σ' (L3 : List (View.Piece (Elt F) S1024x64 .bf16)), { LS0 : List (View.Piece (Elt F) S1024x64 .f32) //
      ∀ (xi3 : Vec F S1024x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread harg2, owns_eq_unread harg3, owns_eq_unread harg4, owns_eq_unread harg5, owns_eq_unread harg6]
    iintro ⟨H0, H1, H2, H3, HS0, Hk⟩
    sl_exec (disch := first | exact hc0 | exact hc1)
    sl_step
    iapply Hk
    iframe H0 H1 H2 H3
    iexists _; iexact HS0

theorem scover1_B_0 (y : S1024x64.Idx) : ∃ pc ∈ (kernelRun1_B c i arg2 harg2 arg3 harg3 arg4 harg4 arg5 harg5 arg6 harg6 hc0 hc1 x0 x1 x2 xs0).2.1, y ∈ pc.1.set :=
  View.cover_of_tiledL _ S1024x64.size (by sl_kernel_rfl) y

def sout1_B_0 : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)
end

section
variable (hc0 : ¬cond1_0 i) (hc1 : cond1_1 i) (x0 : Vec F S1x1024 .i32) (x1 : Vec F S1x1024 .f32) (x2 : Vec F S1024x64 .bf16) (xs0 : Vec F S1024x64 .f32)

/-- Node tile 48: the tile's product is added to `xs0`, and the sum, rounded, is the output block. -/
def kernelRun1_C :
    Σ' (L3 : List (View.Piece (Elt F) S1024x64 .bf16)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    rw [owns_eq_unread harg2, owns_eq_unread harg3, owns_eq_unread harg4, owns_eq_unread harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

theorem cover1_C_3 (y : S1024x64.Idx) : ∃ pc ∈ (kernelRun1_C c i arg2 harg2 arg3 harg3 arg4 harg4 arg5 harg5 arg6 harg6 hc0 hc1 x0 x1 x2 xs0).1, y ∈ pc.1.set :=
  View.cover_of_tiledL _ S1024x64.size (by sl_kernel_rfl) y

def out1_C_3 : Vec F S1024x64 .bf16 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (y : S1024x64.Idx) : ∃ pc ∈ (kernelRun1_C c i arg2 harg2 arg3 harg3 arg4 harg4 arg5 harg5 arg6 harg6 hc0 hc1 x0 x1 x2 xs0).2.1, y ∈ pc.1.set :=
  View.cover_of_tiledL _ S1024x64.size (by sl_kernel_rfl) y

def sout1_C_0 : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)
end
end

end Cert.KernelIdeal.Hand

end
-- ==== Proof.KI.Reg1.lean ====
import proofs.«118320_j52716428591833_1_alg».proof.Proof.KI.Reg1Runs

noncomputable section

namespace Cert.KernelIdeal.Hand

open Idealize.ShloMosaic Idealize.ShloMosaic.TcCoe
open Idealize.SL.RA Idealize.SL.BI
open Idealize.SL.BI.BIBase Idealize.SL.Sem
open Cert.KernelIdeal.Gen Cert.Lib.Reg2
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Grid point `t` with `t % 49 = 0`: the accumulator restarts from the tile's product. -/
abbrev ptA (c : Dev nD) (t : Fin cfg1.N) (h0 : t.val % 49 = 0) (h1 : ¬t.val % 49 = 48) : Vec F S1024x64 .bf16 × Vec F S1024x64 .f32 :=
  (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))

/-- `0 < t % 49 < 48`: the tile's product is added to `acc`. -/
abbrev ptB (c : Dev nD) (t : Fin cfg1.N) (h0 : ¬t.val % 49 = 0) (h1 : ¬t.val % 49 = 48) (acc : Vec F S1024x64 .f32) : Vec F S1024x64 .bf16 × Vec F S1024x64 .f32 :=
  (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) acc)

/-- `t % 49 = 48`: the tile's product is added to `acc`, and the rounded sum is the output block. -/
abbrev ptC (c : Dev nD) (t : Fin cfg1.N) (h0 : ¬t.val % 49 = 0) (h1 : t.val % 49 = 48) (acc : Vec F S1024x64 .f32) : Vec F S1024x64 .bf16 × Vec F S1024x64 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) acc,
   sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) acc)

/-- After grid point `n` the second component is the sum of the products of node tiles `0 … n % 49` of edge tile `n / 49`. -/
def outsAt1 (c : Dev nD) : (n : ℕ) → n < cfg1.N → Vec F S1024x64 .bf16 × Vec F S1024x64 .f32
  | 0, hn => ptA V c ⟨0, hn⟩ (Nat.zero_mod _) (by show ¬0 % 49 = 48; decide)
  | n + 1, hn =>
    if h0 : (n + 1) % 49 = 0 then ptA V c ⟨n + 1, hn⟩ h0 (by show ¬(n + 1) % 49 = 48; omega)
    else if h1 : (n + 1) % 49 = 48 then ptC V c ⟨n + 1, hn⟩ h0 h1 (outsAt1 c n (Nat.lt_of_succ_lt hn)).2
    else ptB V c ⟨n + 1, hn⟩ h0 h1 (outsAt1 c n (Nat.lt_of_succ_lt hn)).2

theorem outsAt1_A (c : Dev nD) (t : Fin cfg1.N) (h0 : t.val % 49 = 0) (h1 : ¬t.val % 49 = 48) :
    outsAt1 V c t.val t.isLt = ptA V c t h0 h1 := by
  obtain ⟨n, hn⟩ := t
  cases n with
  | zero => rfl
  | succ n => exact (dif_pos h0).trans rfl

theorem outsAt1_B (c : Dev nD) (t : Fin cfg1.N) (h0 : ¬t.val % 49 = 0) (h1 : ¬t.val % 49 = 48) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 49 = 0) (h1 : t.val % 49 = 48) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def acc1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem acc1_any (c : Dev nD) (n : ℕ) (h : n ≤ cfg1.N) : acc1 V c n h ⊢ iprop(∃ d, owns (c : Thread nD τ) scM1_0 fullShare d) := by
  cases n with
  | zero => exact .rfl
  | succ n => unfold acc1; iintro H; iexists _; iexact H

theorem acc1_pos (c : Dev nD) (n : ℕ) (h : n ≤ cfg1.N) (hz : n ≠ 0) :
    acc1 V c n h = owns (c : Thread nD τ) scM1_0 fullShare (outsAt1 V c (n - 1) (by omega)).2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := iprop(iprop(acc1 V c t.val (Nat.le_of_lt_succ t.isLt) ∗ rest1 (F := F) c) ∗ (∃ r, prngReg c r))
  q _ := fullShare
  owed _ := 0

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (cc1_kernel (grid1.coords t) (ms1_0 t) (hs1_0 t) (ms1_1 t) (hs1_1 t) (ms1_2 t) (hs1_2 t) (ms1_3 t) (hs1_3 t) scM1_0 (Memref.isWhole_whole _)) (fun _ =>
      iprop((dat1 V c).Φ t.succ ∗ (dat1 V c).owesAt () t.succ ∗ (dat1 V c).leavesExact 0 t ∗ (dat1 V c).leavesExact 1 t ∗ (dat1 V c).leavesExact 2 t ∗ (dat1 V c).leavesExact 3 t)) := by
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ rest1 (F := F) c) ∗ (∃ r, prngReg c r)) from rfl,
    show (dat1 V c).Φ t.castSucc = iprop(iprop(acc1 V c t.val (Nat.le_of_lt t.isLt) ∗ rest1 (F := F) c) ∗ (∃ r, prngReg c r)) from rfl,
    show (dat1 V c).leavesExact 0 t = owns (c : Thread nD τ) (ms1_0 t) fullShare (iblk1 V c 0 t) from by
      unfold Dat.leavesExact; rw [liveAt1_0 t]; rfl,
    show (dat1 V c).leavesExact 1 t = owns (c : Thread nD τ) (ms1_1 t) fullShare (iblk1 V c 1 t) from by
      unfold Dat.leavesExact; rw [liveAt1_1 t]; rfl,
    show (dat1 V c).leavesExact 2 t = owns (c : Thread nD τ) (ms1_2 t) fullShare (iblk1 V c 2 t) from by
      unfold Dat.leavesExact; rw [liveAt1_2 t]; rfl]
  by_cases h0 : t.val % 49 = 0
  · have h1 : ¬t.val % 49 = 48 := by omega
    have hc0 := (hcond1_0 t).mpr h0
    have hc1 : ¬cond1_1 (grid1.coords t) := fun h => h1 ((hcond1_1 t).mp h)
    rw [Dat.leavesExact_idle (dat1 V c) 3 t (idleAt1_3_A t hc0 hc1) (noFlush1_3_A t hc0 hc1), outsAt1_A V c t h0 h1]
    dsimp only; unfold sout1_A_0
    iintro ⟨⟨⟨HS0, HR⟩, Hg⟩, Ho, ⟨%d0, H0⟩, ⟨%d1, H1⟩, ⟨%d2, H2⟩, ⟨%d3, H3⟩⟩
    iapply (kernelRun1_A c _ _ _ _ _ _ _ _ _ _ _ hc0 hc1 _ _ _).2.2 _ Set.univ _
    iframe H0 H1 H2 H3
    isplitl [HS0]; · iapply acc1_any; iexact HS0
    iintro ⟨H0, H1, H2, H3, ⟨%es0, HS0⟩⟩
    iframe HR Hg Ho H0 H1 H2
    isplitl [HS0]; · iapply owns_of_cover VS1_0 (scover1_A_0 c _ _ _ _ _ _ _ _ _ _ _ _ _ _ _ _); iexact HS0
    iexists _; iexact H3
  · have hc0 : ¬cond1_0 (grid1.coords t) := fun h => h0 ((hcond1_0 t).mp h)
    rw [acc1_pos V c _ _ fun hz => h0 (by rw [hz])]
    by_cases h1 : t.val % 49 = 48
    · have hc1 := (hcond1_1 t).mpr h1
      rw [show (dat1 V c).leavesExact 3 t = owns (c : Thread nD τ) (ms1_3 t) fullShare ((dat1 V c).after 3 t) from by
        unfold Dat.leavesExact; rw [liveAt1_3_C t hc0 hc1], after1_3, outsAt1_C V c t h0 h1]
      dsimp only; unfold out1_C_3 sout1_C_0
      iintro ⟨⟨⟨HS0, HR⟩, Hg⟩, Ho, ⟨%d0, H0⟩, ⟨%d1, H1⟩, ⟨%d2, H2⟩, ⟨%d3, H3⟩⟩
      iapply (kernelRun1_C c _ _ _ _ _ _ _ _ _ _ _ hc0 hc1 _ _ _ _).2.2 Set.univ _
      iframe H0 H1 H2 HS0
      isplitl [H3]; · iexists _; iexact H3
      iintro ⟨H0, H1, H2, ⟨%e3, H3⟩, ⟨%es0, HS0⟩⟩
      iframe HR Hg Ho H0 H1 H2
      isplitl [HS0]; · iapply owns_of_cover VS1_0 (scover1_C_0 c _ _ _ _ _ _ _ _ _ _ _ _ _ _ _ _ _); iexact HS0
      iapply owns_of_cover VO1_3 (cover1_C_3 c _ _ _ _ _ _ _ _ _ _ _ _ _ _ _ _ _); iexact H3
    · have hc1 : ¬cond1_1 (grid1.coords t) := fun h => h1 ((hcond1_1 t).mp h)
      rw [Dat.leavesExact_idle (dat1 V c) 3 t (idleAt1_3_B t hc0 hc1) (noFlush1_3_B t hc0 hc1), outsAt1_B V c t h0 h1]
      dsimp only; unfold sout1_B_0
      iintro ⟨⟨⟨HS0, HR⟩, Hg⟩, Ho, ⟨%d0, H0⟩, ⟨%d1, H1⟩, ⟨%d2, H2⟩, ⟨%d3, H3⟩⟩
      iapply (kernelRun1_B c _ _ _ _ _ _ _ _ _ _ _ hc0 hc1 _ _ _ _).2.2 _ Set.univ _
      iframe H0 H1 H2 H3 HS0
      iintro ⟨H0, H1, H2, H3, ⟨%es0, HS0⟩⟩
      iframe HR Hg Ho H0 H1 H2
      isplitl [HS0]; · iapply owns_of_cover VS1_0 (scover1_B_0 c _ _ _ _ _ _ _ _ _ _ _ _ _ _ _ _ _); iexact HS0
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; exact .rfl

theorem hout1 (c : Dev nD) : (dat1 V c).Φ (Fin.last cfg1.N) ⊢ Pipeline.ΦA spec1 c := by
  rw [PhiA1_eq]; exact sep_mono_l (sep_mono_l (acc1_any V c _ _))

end Cert.KernelIdeal.Hand

end
-- ==== Proof.KI.Grid2.lean ====
import proofs.«118320_j52716428591833_1_alg».proof.Proof.Gen.KernelIdeal.Launch
import proofs.«118320_j52716428591833_1_alg».proof.Proof.Gen.KernelIdeal.Skeleton
import proofs.«118320_j52716428591833_1_alg».proof.Proof.Lib.Grid

namespace Cert.KernelIdeal.Hand

open Idealize.ShloMosaic Idealize.ShloMosaic.TcCoe
open Cert.KernelIdeal Cert.KernelIdeal.Gen Cert.Lib.Grid

theorem lt_N2 (t : Fin grid2.N) : t.val < 40719 := N_2 ▸ t.isLt

theorem coords2_0 (t : Fin grid2.N) : ((grid2.coords t) 0).val = t.val / 831 := coords_div (G := grid2) 0 (by decide) N_2 (by decide) t
theorem coords2_1 (t : Fin grid2.N) : ((grid2.coords t) 1).val = t.val % 831 := coords_mod (G := grid2) 1 (by decide) rfl t

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem hcond2_0 : ∀ t : Fin cfg2.N, cond2_0 (grid2.coords t) ↔ t.val % 831 = 0 := fun t =>
  (cond_iff _ (by decide) (by decide)).trans (by rw [coords2_1 t])
theorem hcond2_1 : ∀ t : Fin cfg2.N, cond2_1 (grid2.coords t) ↔ t.val % 831 = 830 := fun t =>
  (cond_iff _ (by decide) (by decide)).trans (by rw [coords2_1 t])

theorem liveAt2_0 : ∀ t : Fin cfg2.N, cfg2.idle 0 (grid2.coords t) = false := fun _ => rfl
theorem liveAt2_1 : ∀ t : Fin cfg2.N, cfg2.idle 1 (grid2.coords t) = false := fun _ => rfl

theorem idle2_2_of_not (i : grid2.Coords) (h : ¬cond2_1 i) : cfg2.idle 2 i = true := by
  show (!(k2_cond2 i == 1#1)) = true
  simpa [cond2_1] using h
theorem idleAt2_2_A : ∀ t : Fin cfg2.N, cond2_0 (grid2.coords t) → ¬cond2_1 (grid2.coords t) → cfg2.idle 2 (grid2.coords t) = true :=
  fun _ _ h => idle2_2_of_not _ h
theorem idleAt2_2_B : ∀ t : Fin cfg2.N, ¬cond2_0 (grid2.coords t) → ¬cond2_1 (grid2.coords t) → cfg2.idle 2 (grid2.coords t) = true :=
  fun _ _ h => idle2_2_of_not _ h
theorem liveAt2_2_C : ∀ t : Fin cfg2.N, ¬cond2_0 (grid2.coords t) → cond2_1 (grid2.coords t) → cfg2.idle 2 (grid2.coords t) = false :=
  fun t _ h => by
    show (!(k2_cond2 (grid2.coords t) == 1#1)) = false
    simpa [cond2_1] using h

theorem index2_0 (t : Fin cfg2.N) : (cfg2.win 0).index t (0 : Fin 2) = 0 ∧ (cfg2.win 0).index t (1 : Fin 2) = t.val % 831 :=
  ⟨rfl, (toNat_fin _ (by decide)).trans (coords2_1 t)⟩
theorem index2_1 (t : Fin cfg2.N) : (cfg2.win 1).index t (0 : Fin 2) = t.val % 831 ∧ (cfg2.win 1).index t (1 : Fin 2) = 0 :=
  ⟨(toNat_fin _ (by decide)).trans (coords2_1 t), rfl⟩
theorem index2_2 (t : Fin cfg2.N) : (cfg2.win 2).index t (0 : Fin 2) = t.val / 831 ∧ (cfg2.win 2).index t (1 : Fin 2) = 0 :=
  ⟨(toNat_fin _ (by decide)).trans (coords2_0 t), rfl⟩

theorem flush2_2' : ∀ t : Fin cfg2.N, (cfg2.win 2).flush t = true ↔ t.val % 831 = 830 :=
  flush_iff (cfg2.win 2) (s := 831) (by decide) N_2 (by decide) rfl (fun q => ![q, 0]) (fun _ _ h => congrFun h (0 : Fin 2)) fun t =>
    funext fun a => match a with
      | ⟨0, _⟩ => (index2_2 t).1
      | ⟨1, _⟩ => (index2_2 t).2

theorem noFlush2_2_of_not (t : Fin cfg2.N) (h : ¬cond2_1 (grid2.coords t)) : (cfg2.win 2).flush t = false :=
  Bool.eq_false_iff.mpr fun hf => h ((hcond2_1 t).mpr ((flush2_2' t).mp hf))
theorem noFlush2_2_A : ∀ t : Fin cfg2.N, cond2_0 (grid2.coords t) → ¬cond2_1 (grid2.coords t) → (cfg2.win 2).flush t = false :=
  fun t _ h => noFlush2_2_of_not t h
theorem noFlush2_2_B : ∀ t : Fin cfg2.N, ¬cond2_0 (grid2.coords t) → ¬cond2_1 (grid2.coords t) → (cfg2.win 2).flush t = false :=
  fun t _ h => noFlush2_2_of_not t h

end Cert.KernelIdeal.Hand
-- ==== Proof.KI.Reg2Runs.lean ====
import proofs.«118320_j52716428591833_1_alg».proof.Proof.Gen.KernelIdeal.Launch
import proofs.«118320_j52716428591833_1_alg».proof.Proof.Gen.KernelIdeal.Skeleton
import proofs.«118320_j52716428591833_1_alg».proof.Proof.KI.Grid2
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118320_j52716428591833_1_alg».proof.Proof.Lib.Reg2Lib

noncomputable section

namespace Cert.KernelIdeal.Hand

open Idealize.ShloMosaic Idealize.ShloMosaic.TcCoe
open Idealize.SL.RA Idealize.SL.BI
open Idealize.SL.BI.BIBase Idealize.SL.Sem
open Cert.KernelIdeal.Gen Cert.Lib.Reg2

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO2_2 : View sig .tc .vmem S1024x64 .f32 := (Memref.whole cc2_stg2_0 : Memref sig .tc .vmem S1024x64 .f32).view
abbrev ms2_0 (t : Fin cfg2.N) : Memref sig .tc .vmem S1x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
abbrev scM2_0 : Memref sig .tc .vmem S1024x64 .f32 := Memref.whole cc2_scratch0
abbrev VS2_0 : View sig .tc .vmem S1024x64 .f32 := scM2_0.view

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA
  rw [Pipeline.scopedRest_split_of_list spec2 c [cc2_scratch0] (by decide) (by decide)]
  simp only [scM2_0, owns_whole]; try rfl

section Runs

variable (c : Dev nD) (i : grid2.Coords) (arg2 : Memref sig .tc .vmem S1x1024 .i32) (harg2 : arg2.IsWhole) (arg3 : Memref sig .tc .vmem S1024x64 .bf16) (harg3 : arg3.IsWhole) (arg4 : Memref sig .tc .vmem S1024x64 .f32) (harg4 : arg4.IsWhole) (arg5 : Memref sig .tc .vmem S1024x64 .f32) (harg5 : arg5.IsWhole)

section
variable (hc0 : cond2_0 i) (hc1 : ¬cond2_1 i) (x0 : Vec F S1x1024 .i32) (x1 : Vec F S1024x64 .bf16)

def kernelRun2_A :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    rw [owns_eq_unread harg2, owns_eq_unread harg3, owns_eq_unread harg4]
    unfold owns
    iintro ⟨H0, H1, H2, ⟨%ds0, %fs0, -, HS0⟩, Hk⟩
    sl_exec (disch := first | exact hc0 | exact hc1)
    sl_step
    iapply Hk
    iframe H0 H1 H2
    iexists _; iexact HS0

theorem scover2_A_0 (y : S1024x64.Idx) : ∃ pc ∈ (kernelRun2_A c i arg2 harg2 arg3 harg3 arg4 harg4 arg5 harg5 hc0 hc1 x0 x1).2.1, y ∈ pc.1.set :=
  View.cover_of_tiledL _ S1024x64.size (by sl_kernel_rfl) y

def sout2_A_0 : Vec F S1024x64 .f32 :=
  VS2_0.read (Elt F) (VS2_0.writes (Elt F) VS2_0.junk (kernelRun2_A c i arg2 harg2 arg3 harg3 arg4 harg4 arg5 harg5 hc0 hc1 x0 x1).2.1)
end

section
variable (hc0 : ¬cond2_0 i) (hc1 : ¬cond2_1 i) (x0 : Vec F S1x1024 .i32) (x1 : Vec F S1024x64 .bf16) (xs0 : Vec F S1024x64 .f32)

def kernelRun2_B :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    rw [owns_eq_unread harg2, owns_eq_unread harg3, owns_eq_unread harg4, owns_eq_unread harg5]
    iintro ⟨H0, H1, H2, HS0, Hk⟩
    sl_exec (disch := first | exact hc0 | exact hc1)
    sl_step
    iapply Hk
    iframe H0 H1 H2
    iexists _; iexact HS0

theorem scover2_B_0 (y : S1024x64.Idx) : ∃ pc ∈ (kernelRun2_B c i arg2 harg2 arg3 harg3 arg4 harg4 arg5 harg5 hc0 hc1 x0 x1 xs0).2.1, y ∈ pc.1.set :=
  View.cover_of_tiledL _ S1024x64.size (by sl_kernel_rfl) y

def sout2_B_0 : Vec F S1024x64 .f32 :=
  VS2_0.read (Elt F) (VS2_0.writes (Elt F) VS2_0.junk (kernelRun2_B c i arg2 harg2 arg3 harg3 arg4 harg4 arg5 harg5 hc0 hc1 x0 x1 xs0).2.1)
end

section
variable (hc0 : ¬cond2_0 i) (hc1 : cond2_1 i) (x0 : Vec F S1x1024 .i32) (x1 : Vec F S1024x64 .bf16) (xs0 : Vec F S1024x64 .f32)

def kernelRun2_C :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    rw [owns_eq_unread harg2, owns_eq_unread harg3, owns_eq_unread harg5]
    unfold owns
    iintro ⟨H0, H1, ⟨%d2, %f2, -, H2⟩, HS0, Hk⟩
    sl_exec (disch := first | exact hc0 | exact hc1)
    sl_step
    iapply Hk
    iframe H0 H1
    isplitl [H2]; · iexists _; iexact H2
    iexists _; iexact HS0

theorem cover2_C_2 (y : S1024x64.Idx) : ∃ pc ∈ (kernelRun2_C c i arg2 harg2 arg3 harg3 arg4 harg4 arg5 harg5 hc0 hc1 x0 x1 xs0).1, y ∈ pc.1.set :=
  View.cover_of_tiledL _ S1024x64.size (by sl_kernel_rfl) y

def out2_C_2 : Vec F S1024x64 .f32 :=
  VO2_2.read (Elt F) (VO2_2.writes (Elt F) VO2_2.junk (kernelRun2_C c i arg2 harg2 arg3 harg3 arg4 harg4 arg5 harg5 hc0 hc1 x0 x1 xs0).1)

theorem scover2_C_0 (y : S1024x64.Idx) : ∃ pc ∈ (kernelRun2_C c i arg2 harg2 arg3 harg3 arg4 harg4 arg5 harg5 hc0 hc1 x0 x1 xs0).2.1, y ∈ pc.1.set :=
  View.cover_of_tiledL _ S1024x64.size (by sl_kernel_rfl) y

def sout2_C_0 : Vec F S1024x64 .f32 :=
  VS2_0.read (Elt F) (VS2_0.writes (Elt F) VS2_0.junk (kernelRun2_C c i arg2 harg2 arg3 harg3 arg4 harg4 arg5 harg5 hc0 hc1 x0 x1 xs0).2.1)
end

end Runs

end Cert.KernelIdeal.Hand

end
-- ==== Proof.KI.Reg2.lean ====
import proofs.«118320_j52716428591833_1_alg».proof.Proof.KI.Reg2Runs

noncomputable section

namespace Cert.KernelIdeal.Hand

open Idealize.ShloMosaic Idealize.ShloMosaic.TcCoe
open Idealize.SL.RA Idealize.SL.BI
open Idealize.SL.BI.BIBase Idealize.SL.Sem
open Cert.KernelIdeal.Gen Cert.Lib.Reg2
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev pt2A (c : Dev nD) (t : Fin cfg2.N) (h0 : t.val % 831 = 0) (h1 : ¬t.val % 831 = 830) : Vec F S1024x64 .f32 × Vec F S1024x64 .f32 :=
  (VO2_2.read (Elt F) VO2_2.junk, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

abbrev pt2B (c : Dev nD) (t : Fin cfg2.N) (h0 : ¬t.val % 831 = 0) (h1 : ¬t.val % 831 = 830) (acc : Vec F S1024x64 .f32) : Vec F S1024x64 .f32 × Vec F S1024x64 .f32 :=
  (VO2_2.read (Elt F) VO2_2.junk, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) acc)

abbrev pt2C (c : Dev nD) (t : Fin cfg2.N) (h0 : ¬t.val % 831 = 0) (h1 : t.val % 831 = 830) (acc : Vec F S1024x64 .f32) : Vec F S1024x64 .f32 × Vec F S1024x64 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) acc, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) acc)

def outsAt2 (c : Dev nD) : (n : ℕ) → n < cfg2.N → Vec F S1024x64 .f32 × Vec F S1024x64 .f32
  | 0, hn => pt2A V c ⟨0, hn⟩ (Nat.zero_mod _) (by show ¬0 % 831 = 830; decide)
  | n + 1, hn =>
    if h0 : (n + 1) % 831 = 0 then pt2A V c ⟨n + 1, hn⟩ h0 (by show ¬(n + 1) % 831 = 830; omega)
    else if h1 : (n + 1) % 831 = 830 then pt2C V c ⟨n + 1, hn⟩ h0 h1 (outsAt2 c n (Nat.lt_of_succ_lt hn)).2
    else pt2B V c ⟨n + 1, hn⟩ h0 h1 (outsAt2 c n (Nat.lt_of_succ_lt hn)).2

theorem outsAt2_A (c : Dev nD) (t : Fin cfg2.N) (h0 : t.val % 831 = 0) (h1 : ¬t.val % 831 = 830) :
    outsAt2 V c t.val t.isLt = pt2A V c t h0 h1 := by
  obtain ⟨n, hn⟩ := t
  cases n with
  | zero => rfl
  | succ n => exact (dif_pos h0).trans rfl

theorem outsAt2_B (c : Dev nD) (t : Fin cfg2.N) (h0 : ¬t.val % 831 = 0) (h1 : ¬t.val % 831 = 830) :
    outsAt2 V c t.val t.isLt = pt2B V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 831 = 0) (h1 : t.val % 831 = 830) :
    outsAt2 V c t.val t.isLt = pt2C V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def acc2 (c : Dev nD) : (n : ℕ) → n ≤ cfg2.N → sProp 𝕄
  | 0, _ => iprop(∃ d, owns (c : Thread nD τ) scM2_0 fullShare d)
  | n + 1, hn => owns (c : Thread nD τ) scM2_0 fullShare (outsAt2 V c n hn).2

theorem acc2_any (c : Dev nD) (n : ℕ) (h : n ≤ cfg2.N) : acc2 V c n h ⊢ iprop(∃ d, owns (c : Thread nD τ) scM2_0 fullShare d) := by
  cases n with
  | zero => exact .rfl
  | succ n => unfold acc2; iintro H; iexists _; iexact H

theorem acc2_pos (c : Dev nD) (n : ℕ) (h : n ≤ cfg2.N) (hz : n ≠ 0) :
    acc2 V c n h = owns (c : Thread nD τ) scM2_0 fullShare (outsAt2 V c (n - 1) (by omega)).2 := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := iprop(iprop(acc2 V c t.val (Nat.le_of_lt_succ t.isLt) ∗ rest2 (F := F) c) ∗ (∃ r, prngReg c r))
  q _ := fullShare
  owed _ := 0

theorem after2_2 (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (cc2_kernel (grid2.coords t) (ms2_0 t) (hs2_0 t) (ms2_1 t) (hs2_1 t) (ms2_2 t) (hs2_2 t) scM2_0 (Memref.isWhole_whole _)) (fun _ =>
      iprop((dat2 V c).Φ t.succ ∗ (dat2 V c).owesAt () t.succ ∗ (dat2 V c).leavesExact 0 t ∗ (dat2 V c).leavesExact 1 t ∗ (dat2 V c).leavesExact 2 t)) := by
  simp only [before2_0, before2_1]
  rw [show (dat2 V c).owesAt () t.succ = (dat2 V c).owesAt () t.castSucc from rfl,
    show (dat2 V c).Φ t.succ = iprop(iprop(owns (c : Thread nD τ) scM2_0 fullShare (outsAt2 V c t.val t.isLt).2 ∗ rest2 (F := F) c) ∗ (∃ r, prngReg c r)) from rfl,
    show (dat2 V c).Φ t.castSucc = iprop(iprop(acc2 V c t.val (Nat.le_of_lt t.isLt) ∗ rest2 (F := F) c) ∗ (∃ r, prngReg c r)) from rfl,
    show (dat2 V c).leavesExact 0 t = owns (c : Thread nD τ) (ms2_0 t) fullShare (iblk2 V c 0 t) from by
      unfold Dat.leavesExact; rw [liveAt2_0 t]; rfl,
    show (dat2 V c).leavesExact 1 t = owns (c : Thread nD τ) (ms2_1 t) fullShare (iblk2 V c 1 t) from by
      unfold Dat.leavesExact; rw [liveAt2_1 t]; rfl]
  by_cases h0 : t.val % 831 = 0
  · have h1 : ¬t.val % 831 = 830 := by omega
    have hc0 := (hcond2_0 t).mpr h0
    have hc1 : ¬cond2_1 (grid2.coords t) := fun h => h1 ((hcond2_1 t).mp h)
    rw [Dat.leavesExact_idle (dat2 V c) 2 t (idleAt2_2_A t hc0 hc1) (noFlush2_2_A t hc0 hc1), outsAt2_A V c t h0 h1]
    dsimp only; unfold sout2_A_0
    iintro ⟨⟨⟨HS0, HR⟩, Hg⟩, Ho, ⟨%d0, H0⟩, ⟨%d1, H1⟩, ⟨%d2, H2⟩⟩
    iapply (kernelRun2_A c _ _ _ _ _ _ _ _ _ hc0 hc1 _ _).2.2 _ Set.univ _
    iframe H0 H1 H2
    isplitl [HS0]; · iapply acc2_any; iexact HS0
    iintro ⟨H0, H1, H2, ⟨%es0, HS0⟩⟩
    iframe HR Hg Ho H0 H1
    isplitl [HS0]; · iapply owns_of_cover VS2_0 (scover2_A_0 c _ _ _ _ _ _ _ _ _ _ _ _ _); iexact HS0
    iexists _; iexact H2
  · have hc0 : ¬cond2_0 (grid2.coords t) := fun h => h0 ((hcond2_0 t).mp h)
    rw [acc2_pos V c _ _ fun hz => h0 (by rw [hz])]
    by_cases h1 : t.val % 831 = 830
    · have hc1 := (hcond2_1 t).mpr h1
      rw [show (dat2 V c).leavesExact 2 t = owns (c : Thread nD τ) (ms2_2 t) fullShare ((dat2 V c).after 2 t) from by
        unfold Dat.leavesExact; rw [liveAt2_2_C t hc0 hc1], after2_2, outsAt2_C V c t h0 h1]
      dsimp only; unfold out2_C_2 sout2_C_0
      iintro ⟨⟨⟨HS0, HR⟩, Hg⟩, Ho, ⟨%d0, H0⟩, ⟨%d1, H1⟩, ⟨%d2, H2⟩⟩
      iapply (kernelRun2_C c _ _ _ _ _ _ _ _ _ hc0 hc1 _ _ _).2.2 Set.univ _
      iframe H0 H1 HS0
      isplitl [H2]; · iexists _; iexact H2
      iintro ⟨H0, H1, ⟨%e2, H2⟩, ⟨%es0, HS0⟩⟩
      iframe HR Hg Ho H0 H1
      isplitl [HS0]; · iapply owns_of_cover VS2_0 (scover2_C_0 c _ _ _ _ _ _ _ _ _ _ _ _ _ _); iexact HS0
      iapply owns_of_cover VO2_2 (cover2_C_2 c _ _ _ _ _ _ _ _ _ _ _ _ _ _); iexact H2
    · have hc1 : ¬cond2_1 (grid2.coords t) := fun h => h1 ((hcond2_1 t).mp h)
      rw [Dat.leavesExact_idle (dat2 V c) 2 t (idleAt2_2_B t hc0 hc1) (noFlush2_2_B t hc0 hc1), outsAt2_B V c t h0 h1]
      dsimp only; unfold sout2_B_0
      iintro ⟨⟨⟨HS0, HR⟩, Hg⟩, Ho, ⟨%d0, H0⟩, ⟨%d1, H1⟩, ⟨%d2, H2⟩⟩
      iapply (kernelRun2_B c _ _ _ _ _ _ _ _ _ hc0 hc1 _ _ _).2.2 _ Set.univ _
      iframe H0 H1 H2 HS0
      iintro ⟨H0, H1, H2, ⟨%es0, HS0⟩⟩
      iframe HR Hg Ho H0 H1
      isplitl [HS0]; · iapply owns_of_cover VS2_0 (scover2_B_0 c _ _ _ _ _ _ _ _ _ _ _ _ _ _); iexact HS0
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq]; exact .rfl

theorem hout2 (c : Dev nD) : (dat2 V c).Φ (Fin.last cfg2.N) ⊢ Pipeline.ΦA spec2 c := by
  rw [PhiA2_eq]; exact sep_mono_l (sep_mono_l (acc2_any V c _ _))

end Cert.KernelIdeal.Hand

end
-- ==== Proof.KI.RunAll.lean ====
import proofs.«118320_j52716428591833_1_alg».proof.Proof.Gen.KernelIdeal.Regions
import proofs.«118320_j52716428591833_1_alg».proof.Proof.KI.Reg0
import proofs.«118320_j52716428591833_1_alg».proof.Proof.KI.Reg1
import proofs.«118320_j52716428591833_1_alg».proof.Proof.KI.Reg2

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VT11 : (c : Dev nD) → (b : Ref sig .tc) → Buf (Elt F) ((c : Thread nD τ).loc b) := fun c b => V11 m c b

def W12 (c : Dev nD) : Valuation τ sig (Elt F) :=
  Pipeline.withArrays spec0 c (V11 m c) fun w => (dat0 (VT11 m) c).arrAt w cfg0.N
theorem W12_arr (c : Dev nD) (w : Fin cfg0.W) :
    W12 m c (Proc.devRef .tc (Pipeline.arrRef spec0 w)) = (dat0 (VT11 m) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m c (Proc.devRef .tc b) = V11 m c (Proc.devRef .tc b) := by
  unfold W12; exact Pipeline.withArrays_of_ne spec0 c _ _ b hb

abbrev VT12 : (c : Dev nD) → (b : Ref sig .tc) → Buf (Elt F) ((c : Thread nD τ).loc b) := fun c b => W12 m c b

def W13 (c : Dev nD) : Valuation τ sig (Elt F) :=
  Pipeline.withArrays spec1 c (W12 m c) fun w => (dat1 (VT12 m) c).arrAt w cfg1.N
theorem W13_arr (c : Dev nD) (w : Fin cfg1.W) :
    W13 m c (Proc.devRef .tc (Pipeline.arrRef spec1 w)) = (dat1 (VT12 m) c).arrAt w cfg1.N := by
  unfold W13; exact Pipeline.withArrays_arr spec1 launch1.win.arr_inj c _ _ w
theorem W13_of_ne (c : Dev nD) (b : Ref sig .tc) (hb : ∀ w, Pipeline.arrRef spec1 w ≠ b) :
    W13 m c (Proc.devRef .tc b) = W12 m c (Proc.devRef .tc b) := by
  unfold W13; exact Pipeline.withArrays_of_ne spec1 c _ _ b hb

abbrev VT13 : (c : Dev nD) → (b : Ref sig .tc) → Buf (Elt F) ((c : Thread nD τ).loc b) := fun c b => W13 m c b

def W14 (c : Dev nD) : Valuation τ sig (Elt F) :=
  Pipeline.withArrays spec2 c (W13 m c) fun w => (dat2 (VT13 m) c).arrAt w cfg2.N
theorem W14_arr (c : Dev nD) (w : Fin cfg2.W) :
    W14 m c (Proc.devRef .tc (Pipeline.arrRef spec2 w)) = (dat2 (VT13 m) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m c (Proc.devRef .tc b) = W13 m c (Proc.devRef .tc b) := by
  unfold W14; exact Pipeline.withArrays_of_ne spec2 c _ _ b hb

abbrev W15 (c : Dev nD) : Valuation τ sig (Elt F) := StableHlo.after hostOps3 (W14 m c)

def pdats : (p : Fin 3) → (c : Dev nD) → Dat τ (Elt F) Unit ℕ (UR sig nD τ) ℕ (Pipeline.pin (pcfgs (F := F)) adm p) c
  | ⟨0, _⟩ => fun c => dat0 (VT11 m) c
  | ⟨1, _⟩ => fun c => dat1 (VT12 m) c
  | ⟨2, _⟩ => fun c => dat2 (VT13 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VT11 m) c).loose
  hwaits := Pipeline.hwaits_of_owed_zero _ _ _ _ L lv 0 fun _ _ => rfl
  pre c := iprop(StableHlo.held (c : Thread nD τ) (Pipeline.ucRefs τ sig) (V11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec0 c (VT11 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VT11 m c) fun _ => rfl
    rw [Pipeline.unscopedBufs_held] at hsplit
    iintro ⟨⟨Hub, Hp, ⟨%W, HO⟩⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩
    iframe
  hout c := by
    rw [Pipeline.ownSems0_none, show (pdats m 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VT11 m c) (VT12 m c) ((pdats m 0 c).arrAt · cfg0.N) (fun w => (W12_arr m c w).symm)
      (fun b hb => W12_of_ne m c b fun w e => hb (Finset.mem_image.mpr ⟨w, Finset.mem_univ _, e⟩))
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VT12 m) c).loose
  hwaits := Pipeline.hwaits_of_owed_zero _ _ _ _ L lv 1 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec1 c (VT12 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VT12 m c) fun _ => rfl
    rw [Pipeline.unscopedBufs_held] at hsplit
    iintro ⟨⟨Hub, Hp, ⟨%W, HO⟩⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    refine BIBase.Entails.trans ?_ (hin1 (VT12 m) c)
    unfold Pipeline.ΦA
    iintro ⟨Hp, -, Hr⟩
    iframe
  hout c := by
    refine BIBase.Entails.trans (hout1 (VT12 m) c) ?_
    rw [Pipeline.ownSems0_none]; unfold Pipeline.ΦA
    iintro ⟨Hr, Hp⟩
    iframe; iempintro
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VT12 m c) (VT13 m c) ((pdats m 1 c).arrAt · cfg1.N) (fun w => (W13_arr m c w).symm)
      (fun b hb => W13_of_ne m c b fun w e => hb (Finset.mem_image.mpr ⟨w, Finset.mem_univ _, e⟩))
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VT13 m) c).loose
  hwaits := Pipeline.hwaits_of_owed_zero _ _ _ _ L lv 2 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec2 c (VT13 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VT13 m c) fun _ => rfl
    rw [Pipeline.unscopedBufs_held] at hsplit
    iintro ⟨⟨Hub, Hp, ⟨%W, HO⟩⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    refine BIBase.Entails.trans ?_ (hin2 (VT13 m) c)
    unfold Pipeline.ΦA
    iintro ⟨Hp, -, Hr⟩
    iframe
  hout c := by
    refine BIBase.Entails.trans (hout2 (VT13 m) c) ?_
    rw [Pipeline.ownSems0_none]; unfold Pipeline.ΦA
    iintro ⟨Hr, Hp⟩
    iframe; iempintro
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VT13 m c) (fun b => W14 m c b) ((pdats m 2 c).arrAt · cfg2.N) (fun w => (W14_arr m c w).symm)
      (fun b hb => W14_of_ne m c b fun w e => hb (Finset.mem_image.mpr ⟨w, Finset.mem_univ _, e⟩))
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .region (reg0 m), .region (reg1 m), .region (reg2 m),
    .host (hseg hostOps3 hostOps3_sub hostOps3_fresh (W14 m)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W15 m c))
    (hch := fun c => ⟨.rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨Hh, HSI⟩
      unfold StableHlo.held
      imodintro
      iapply (pointsTo_read_all (Pipeline.ucRefs τ sig) (fun b => (((c : Thread nD τ)).1, b)) (W15 m c) s')
      iframe)
    (hQ := fun s h c => h c)

theorem W15_of (c : Dev nD) (r : Ref sig .tc) (h3 : r ∉ hostOps3_W) (h2 : ∀ w, Pipeline.arrRef spec2 w ≠ r)
    (h1 : ∀ w, Pipeline.arrRef spec1 w ≠ r) (h0 : W12 m c (Proc.devRef .tc r) = V11 m c r)
    (h : r ∉ hostOps0_10_W ∧ r ∉ hostOps0_9_W ∧ r ∉ hostOps0_8_W ∧ r ∉ hostOps0_7_W ∧ r ∉ hostOps0_6_W ∧ r ∉ hostOps0_5_W
      ∧ r ∉ hostOps0_4_W ∧ r ∉ hostOps0_3_W ∧ r ∉ hostOps0_2_W ∧ r ∉ hostOps0_1_W ∧ r ∉ hostOps0_W) :
    W15 m c (Proc.devRef .tc r) = m ((c : Thread nD τ).loc r) := by
  obtain ⟨a10, a9, a8, a7, a6, a5, a4, a3, a2, a1, a0⟩ := h
  exact (StableHlo.after_of_writes_sub hostOps3 _ hostOps3_writes h3).trans <| (W14_of_ne m c r h2).trans <|
    (W13_of_ne m c r h1).trans <| h0.trans <| (V11_of m c r a10).trans <| (V10_of m c r a9).trans <|
    (V9_of m c r a8).trans <| (V8_of m c r a7).trans <| (V7_of m c r a6).trans <| (V6_of m c r a5).trans <|
    (V5_of m c r a4).trans <| (V4_of m c r a3).trans <| (V3_of m c r a2).trans <| (V2_of m c r a1).trans <|
    (V1_of m c r a0).trans rfl

theorem run_val : θ_run defs (onTc (τ := τ) (main (F := F))) ⟨m, fun _ => 0, ρ⟩ (fun r => ∀ c : Dev nD,
      r.2.mem ((c.tc : Thread nD τ).loc main_v43) = W15 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v43 (by decide)),
     (h c _ (mem_uc main_arg0 (by decide))).trans (W15_of m c main_arg0 (by decide) (by decide) (by decide) (W12_of_ne m c _ (by decide)) (by decide)),
     (h c _ (mem_uc main_arg1 (by decide))).trans (W15_of m c main_arg1 (by decide) (by decide) (by decide)
       ((W12_arr m c 1).trans (((dat0 (VT11 m) c).arrAt_in 1 rfl _).trans (A_eq0 (VT11 m) c 1))) (by decide)),
     (h c _ (mem_uc main_arg2 (by decide))).trans (W15_of m c main_arg2 (by decide) (by decide) (by decide) (W12_of_ne m c _ (by decide)) (by decide)),
     (h c _ (mem_uc main_arg3 (by decide))).trans (W15_of m c main_arg3 (by decide) (by decide) (by decide) (W12_of_ne m c _ (by decide)) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_val m ρ)

end Cert.KernelIdeal.Hand

end
-- ==== Proof.Val.RefRun.lean ====
import proofs.«118320_j52716428591833_1_alg».proof.Proof.Val.RefRunP
-- ==== Proof.Val.HostChain.lean ====
import proofs.«118320_j52716428591833_1_alg».proof.Proof.Gen.KernelIdeal

noncomputable section

namespace Cert.Gcn

open Idealize.ShloMosaic Cert.KernelIdeal Cert.KernelIdeal.Gen

variable {F : FTy → Type} [FloatOps F]

def rowOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

def colOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

def degOf (ei : IVec S2x800000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (colOf ei))
    (broadcastInDim S850000 ![] bcast_S_S850000 (constant S_ .f32 0x3F800000#32))

def dinvOf (ei : IVec S2x800000 32) : FVec F S50000 .f32 :=
  select (cmpf .ogt (degOf (F := F) ei) (broadcastInDim S50000 ![] bcast_S_S50000 (constant S_ .f32 0x00000000#32)))
    (Host.rsqrt (degOf (F := F) ei))
    (broadcastInDim S50000 ![] bcast_S_S50000 (constant S_ .f32 0x00000000#32))

def wrapIdx (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

def normOf (ei : IVec S2x800000 32) : FVec F S850000 .f32 :=
  mulf
    (Host.gather gather_S50000_S850000x1_S850000_n_0_n_n_0_1_1 (dinvOf (F := F) ei)
      (broadcastInDim S850000x1 ![0] bcast_S850000_S850000x1_0 (wrapIdx (rowOf ei))))
    (Host.gather gather_S50000_S850000x1_S850000_n_0_n_n_0_1_1 (dinvOf (F := F) ei)
      (broadcastInDim S850000x1 ![0] bcast_S850000_S850000x1_0 (wrapIdx (colOf ei))))

end Cert.Gcn

end
-- ==== Proof.Val.RefVal.lean ====
import proofs.«118320_j52716428591833_1_alg».proof.Proof.Val.RefRun
import proofs.«118320_j52716428591833_1_alg».proof.Proof.Val.HostChain
import Idealize.ShloMosaic.Lib.Pipeline.Value
import Idealize.ShloMosaic.Lib.ValueIdx
import Idealize.ShloMosaic.Lib.StableHlo.Predicate
import Idealize.ShloMosaic.Lib.IdealHost
import Idealize.ShloMosaic.Lib.KernelVsHost
import Idealize.ShloMosaic.PureOps.Ideal
import Idealize.ShloMosaic.PureOps.Ideal.Laws

noncomputable section

namespace Cert.ReferenceIdeal.RefValue

open Idealize.ShloMosaic Idealize.ShloMosaic.TcCoe Idealize.SL.Sem Cert.ReferenceIdeal Cert.ReferenceIdeal.Gen Cert.Gcn
open Idealize.ShloMosaic.ValueIdx
open scoped BigOperators

-- A word whose signed value is a natural number below 50000 is that number's word.
theorem toInt_eq_iff (w : BitVec 32) (r : Nat) (hr : r < 50000) : w.toInt = (r : Int) ↔ w = BitVec.ofNat 32 r := by
  rw [BitVec.toInt_eq_toNat_cond, ← BitVec.toNat_inj, BitVec.toNat_ofNat, Nat.mod_eq_of_lt (by omega : r < 2 ^ 32)]
  have := w.isLt
  split <;> omega

abbrev SD := scatter_S50000x64_S850000x1_S850000x64_1_0_0_1
abbrev GD := gather_S50000x64_S850000x1_S850000x64_1_0_n_n_0_1_164

theorem bc_col {α : Type} (y : S850000.Idx → α) (e : Fin 850000) (z : Fin 1) :
    broadcastInDim S850000x1 ![0] bcast_S850000_S850000x1_0 y (ix2 e z) = y (ix1 e) :=
  broadcastInDim_apply _ bcast_S850000_S850000x1_0 y (ix2 e z) (ix1 e) (fun a => match a with
    | ⟨0, _⟩ => by show e.val = if (850000 : Nat) = 1 then 0 else e.val; rw [if_neg (by decide)])

theorem sd_siIdx (j : S850000x64.Idx) (c : Fin SD.scatterDimsToOperandDims.length) :
    SD.siIdx j c = ix2 (j 0) (0 : Fin 1) := by
  funext b
  refine Fin.ext ?_
  match b with
  | ⟨0, _⟩ => rfl
  | ⟨1, _⟩ => exact Nat.lt_one_iff.1 c.isLt

-- A scatter update lands on an element exactly when, on every axis, its start index plus its offset is that element's coordinate.
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  split
  · next h =>
    rw [Option.some.injEq, funext_iff]
    refine forall_congr' fun a => ?_
    have := h a
    rw [Fin.ext_iff]
    show (D.start j idx a + (D.window j a : Int)).toNat = (i a).val ↔ _
    omega
  · next h =>
    refine ⟨fun h' => (nomatch h'), fun h' => absurd (fun a => ?_) h⟩
    have := (i a).isLt
    have := h' a
    omega

theorem sd_pos0 (j : S850000x64.Idx) (idx : IVec S850000x1 32) :
    SD.start j idx 0 + (SD.window j 0 : Int) = (idx (ix2 (j 0) (0 : Fin 1))).toInt := by
  unfold ScatterDims.start ScatterDims.window
  rw [dif_pos (show (0 : Fin 2) ∈ SD.scatterDimsToOperandDims from List.mem_singleton.mpr rfl), sd_siIdx,
    dif_neg (show ¬ (0 : Fin 2) ∈ SD.sKept by decide)]
  exact Int.add_zero _

theorem sd_pos1 (j : S850000x64.Idx) (idx : IVec S850000x1 32) :
    SD.start j idx 1 + (SD.window j 1 : Int) = ((j 1).val : Int) := by
  unfold ScatterDims.start ScatterDims.window
  rw [dif_neg (show ¬ (1 : Fin 2) ∈ SD.scatterDimsToOperandDims by decide), dif_pos (show (1 : Fin 2) ∈ SD.sKept by decide)]
  exact Int.zero_add _

theorem sd_resultIdx_iff (idx : IVec S850000x1 32) (e : Fin 850000) (d' : Fin 64) (r : Fin 50000) (d : Fin 64) :
    SD.resultIdx? (ix2 e d') idx = some (ix2 r d) ↔ idx (ix2 e (0 : Fin 1)) = BitVec.ofNat 32 r.val ∧ d' = d := by
  rw [resultIdx?_eq_some_iff, Fin.forall_fin_two, sd_pos0, sd_pos1]
  show (idx (ix2 e (0 : Fin 1))).toInt = (r.val : Int) ∧ (d'.val : Int) = (d.val : Int) ↔ _
  rw [toInt_eq_iff _ _ r.isLt, Fin.ext_iff, Nat.cast_inj]

-- The scatter at the target words: the operand plus the updates of the edges whose target word is the row's.
theorem scatterAdd_col_apply (x : S50000x64.Idx → EReal) (y : IVec S850000 32) (upd : S850000x64.Idx → EReal)
    (r : Fin 50000) (d : Fin 64) :
    Ideal.hostScatterAdd SD x (broadcastInDim S850000x1 ![0] bcast_S850000_S850000x1_0 y) upd (ix2 r d)
      = x (ix2 r d) + ∑ e ∈ Finset.univ.filter (fun e : Fin 850000 => y (ix1 e) = BitVec.ofNat 32 r.val),
          upd (ix2 e d) := by
  unfold Ideal.hostScatterAdd
  refine congrArg (fun t => x (ix2 r d) + t) ?_
  rw [Finset.sum_filter, Finset.sum_filter, sum_idx2]
  refine Finset.sum_congr rfl fun e _ => ?_
  simp only [sd_resultIdx_iff]
  rw [bc_col]
  by_cases hq : y (ix1 e) = BitVec.ofNat 32 r.val
  · simp only [hq, true_and]
    rw [Finset.sum_ite_eq' Finset.univ d (fun d' => upd (ix2 e d'))]
    simp
  · simp only [hq, false_and, if_false, Finset.sum_const_zero]

theorem gd_siIdx (j : S850000x64.Idx) (c : Fin GD.startIndexMap.length) :
    GD.siIdx j c = ix2 (j 0) (0 : Fin 1) := by
  funext b
  refine Fin.ext ?_
  match b with
  | ⟨0, _⟩ => rfl
  | ⟨1, _⟩ => exact Nat.lt_one_iff.1 c.isLt

-- A node index in range is not negative, so it is not shifted.
theorem wrapIdx_apply_of_lt (v : IVec S850000 32) (e : Fin 850000) (h : (v (ix1 e)).toNat < 50000) :
    wrapIdx v (ix1 e) = v (ix1 e) := by
  show Scalar.select (IntOp.cmpi .slt (v (ix1 e)) 0#32) (IntOp.addi (v (ix1 e)) 50000#32) (v (ix1 e)) = v (ix1 e)
  rw [eq_zero_of_ne_one fun h1 => absurd ((StableHlo.Predicate.slt_iff_toNat (by omega) (by decide)).1 h1) (Nat.not_lt_zero _),
    select_zero]

theorem bc_wide {α : Type} (y : S850000x1.Idx → α) (e : Fin 850000) (d : Fin 64) :
    broadcastInDim S850000x64 ![0, 1] bcast_S850000x1_S850000x64_0_1 y (ix2 e d) = y (ix2 e (0 : Fin 1)) :=
  broadcastInDim_apply _ bcast_S850000x1_S850000x64_0_1 y (ix2 e d) (ix2 e (0 : Fin 1)) (fun a => match a with
    | ⟨0, _⟩ => by show e.val = if (850000 : Nat) = 1 then 0 else e.val; rw [if_neg (by decide)]
    | ⟨1, _⟩ => by show 0 = if (1 : Nat) = 1 then 0 else d.val; rw [if_pos rfl])

theorem bc_bias {α : Type} (y : S64.Idx → α) (r : Fin 50000) (d : Fin 64) :
    broadcastInDim S50000x64 ![0, 1] bcast_S1x64_S50000x64_0_1 (broadcastInDim S1x64 ![1] bcast_S64_S1x64_1 y) (ix2 r d)
      = y (ix1 d) :=
  (broadcastInDim_oneRow_apply _ _ r d).trans (broadcastInDim_apply _ bcast_S64_S1x64_1 y (ix2 (0 : Fin 1) d) (ix1 d) (fun a => match a with
    | ⟨0, _⟩ => by show d.val = if (64 : Nat) = 1 then 0 else d.val; rw [if_neg (by decide)]))

theorem bc_zero (r : Fin 50000) (d : Fin 64) :
    (broadcastInDim S50000x64 ![] bcast_S_S50000x64 (constant (F := Ideal) S_ .f32 0x00000000#32) : S50000x64.Idx → EReal) (ix2 r d) = 0 := by
  rw [broadcastInDim_scalar_apply, constant_apply, Ideal.ofBits_zero_f32]

abbrev DD := dot_S50000x64_S64x64_S50000x64_1_0_0_1_n_n

theorem dd_lhs0 (i : S50000x64.Idx) (q : DD.contr.Idx) : (DD.lhsIdx i q 0).val = (i 0).val := by
  unfold DotDims.lhsIdx
  rw [dif_neg (show ¬(0 : Fin S50000x64.rank) ∈ DD.lhsBatch by decide), dif_pos (show (0 : Fin S50000x64.rank) ∈ DD.lhsNonContracting by decide)]
  rfl
theorem dd_rhs1 (i : S50000x64.Idx) (q : DD.contr.Idx) : (DD.rhsIdx i q 1).val = (i 1).val := by
  unfold DotDims.rhsIdx
  rw [dif_neg (show ¬(1 : Fin S64x64.rank) ∈ DD.rhsBatch by decide), dif_pos (show (1 : Fin S64x64.rank) ∈ DD.rhsNonContracting by decide)]
  rfl

theorem dot_apply (x0 : FVec Ideal S50000x64 .f32) (x1 : FVec Ideal S64x64 .f32) (r : Fin 50000) (d : Fin 64) :
    (Host.dotGeneral DD none x0 x1 : FVec Ideal S50000x64 .f32) (ix2 r d) = ∑ k : Fin 64, x0 (ix2 r k) * x1 (ix2 k d) := by
  simp only [Host.dotGeneral]
  rw [Ideal.dotGeneral_apply, ← Equiv.sum_comp (contrEquiv1 DD 64 rfl rfl).symm]
  refine Finset.sum_congr rfl fun k _ => ?_
  have hk := contrEquiv1_symm_val DD 64 rfl rfl k
  have el : DD.lhsIdx (ix2 r d) ((contrEquiv1 DD 64 rfl rfl).symm k) = ix2 r k := funext fun a => Fin.ext (by
    match a with
    | ⟨0, _⟩ => exact dd_lhs0 _ _
    | ⟨1, _⟩ => exact (DD.lhsIdx_val_of_single rfl _ _).trans hk)
  have er : DD.rhsIdx (ix2 r d) ((contrEquiv1 DD 64 rfl rfl).symm k) = ix2 k d := funext fun a => Fin.ext (by
    match a with
    | ⟨0, _⟩ => exact (DD.rhsIdx_val_of_single rfl _ _).trans hk
    | ⟨1, _⟩ => exact dd_rhs1 _ _)
  rw [el, er]

-- The gather at the wrapped source words, where the word is in range: the operand's row at that word.
theorem gather_row_apply {α : Type} (x : S50000x64.Idx → α) (v : IVec S850000 32) (e : Fin 850000) (d : Fin 64)
    (h : (v (ix1 e)).toNat < 50000) :
    Host.gather GD x (broadcastInDim S850000x1 ![0] bcast_S850000_S850000x1_0 (wrapIdx v)) (ix2 e d)
      = x (ix2 (⟨(v (ix1 e)).toNat, h⟩ : Fin 50000) d) := by
  unfold Host.gather
  refine congrArg x ?_
  funext a
  refine Fin.ext ?_
  match a with
  | ⟨0, _⟩ =>
    show GD.start (ix2 e d) _ 0 + GD.batchCoord (ix2 e d) 0 + GD.offCoord (ix2 e d) 0 = (v (ix1 e)).toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GD.startIndexMap from List.mem_singleton.mpr rfl), gd_siIdx]
    show min (broadcastInDim S850000x1 ![0] bcast_S850000_S850000x1_0 (wrapIdx v) (ix2 e (0 : Fin 1))).toInt.toNat 49999 + 0 + 0
      = (v (ix1 e)).toNat
    rw [bc_col, wrapIdx_apply_of_lt v e h, StableHlo.Predicate.toInt_eq_toNat_of_lt (by omega)]
    omega
  | ⟨1, _⟩ =>
    show GD.start (ix2 e d) _ 1 + GD.batchCoord (ix2 e d) 1 + GD.offCoord (ix2 e d) 1 = d.val
    rw [GatherDims.batchCoord_eq_zero _ _ _ List.not_mem_nil]
    unfold GatherDims.start GatherDims.offCoord
    rw [dif_neg (show ¬ (1 : Fin 2) ∈ GD.startIndexMap by decide), dif_pos (show (1 : Fin 2) ∈ GD.sKept by decide)]
    simp only [Nat.zero_add, Nat.add_zero]
    rfl

theorem host_scatterAdd_eq (x : FVec Ideal S50000x64 .f32) (idx : IVec S850000x1 32) (upd : FVec Ideal S850000x64 .f32) :
    Host.scatterAdd SD x idx upd = Ideal.hostScatterAdd SD x idx upd := rfl

def refTerm (A0 : FVec Ideal S50000x64 .f32) (A1 : FVec Ideal S64x64 .f32) (A2 : FVec Ideal S64 .f32)
    (ei : IVec S2x800000 32) : FVec Ideal S50000x64 .f32 :=
  addf (Host.scatterAdd SD (broadcastInDim S50000x64 ![] bcast_S_S50000x64 (constant S_ .f32 0x00000000#32))
      (broadcastInDim S850000x1 ![0] bcast_S850000_S850000x1_0 (colOf ei))
      (mulf (Host.gather GD (Host.dotGeneral DD none A0 A1)
          (broadcastInDim S850000x1 ![0] bcast_S850000_S850000x1_0 (wrapIdx (rowOf ei))))
        (broadcastInDim S850000x64 ![0, 1] bcast_S850000x1_S850000x64_0_1
          (broadcastInDim S850000x1 ![0] bcast_S850000_S850000x1_0 (normOf (F := Ideal) ei)))))
    (broadcastInDim S50000x64 ![0, 1] bcast_S1x64_S50000x64_0_1 (broadcastInDim S1x64 ![1] bcast_S64_S1x64_1 A2))

variable (m : (ℓ : Loc nD τ sig) → Buf (Elt Ideal) ℓ)

abbrev argFeat (c : Dev nD) : S50000x64.Idx → EReal := m ((c.tc : Thread nD τ).loc main_arg0)

abbrev argW (c : Dev nD) : S64x64.Idx → EReal := m ((c.tc : Thread nD τ).loc main_arg1)

abbrev argB (c : Dev nD) : S64.Idx → EReal := m ((c.tc : Thread nD τ).loc main_arg2)

abbrev argEi (c : Dev nD) : IVec S2x800000 32 := m ((c.tc : Thread nD τ).loc main_arg3)

abbrev refRes (c : Dev nD) : S50000x64.Idx → EReal := Cert.ReferenceIdeal.ValueP.res_main_v46 (F := Ideal) m c

theorem res_eq (c : Dev nD) :
    Cert.ReferenceIdeal.ValueP.res_main_v46 (F := Ideal) m c = refTerm (argFeat m c) (argW m c) (argB m c) (argEi m c) := by
  unfold Cert.ReferenceIdeal.ValueP.res_main_v46 refTerm
  rfl

theorem ref_result_apply (c : Dev nD)
    (hrow : ∀ e : Fin 850000, (rowOf (argEi m c) (ValueIdx.ix1 e)).toNat < 50000) (r : Fin 50000) (d : Fin 64) :
    refRes m c (ValueIdx.ix2 r d)
      = (∑ e ∈ Finset.univ.filter (fun e : Fin 850000 => colOf (argEi m c) (ValueIdx.ix1 e) = BitVec.ofNat 32 r.val),
            (∑ k : Fin 64, argFeat m c (ValueIdx.ix2 ⟨(rowOf (argEi m c) (ValueIdx.ix1 e)).toNat, hrow e⟩ k)
                * argW m c (ValueIdx.ix2 k d))
              * (normOf (F := Ideal) (argEi m c) : S850000.Idx → EReal) (ValueIdx.ix1 e))
        + argB m c (ValueIdx.ix1 d) := by
  refine (congrFun (res_eq m c) (ix2 r d)).trans ?_
  generalize argFeat m c = A0, argW m c = A1, argB m c = A2
  revert hrow
  generalize argEi m c = ei
  intro hrow
  unfold refTerm
  rw [addf_apply, bc_bias]
  refine congrArg (fun t => t + A2 (ix1 d)) ?_
  rw [host_scatterAdd_eq]
  rw [scatterAdd_col_apply, bc_zero, zero_add]
  refine Finset.sum_congr rfl fun e _ => ?_
  rw [mulf_apply, bc_wide, bc_col, gather_row_apply _ _ e d (hrow e), dot_apply]

end Cert.ReferenceIdeal.RefValue

end
-- ==== Proof.Val.Reg1Pay.lean ====
import proofs.«118320_j52716428591833_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem
open Idealize.ShloMosaic.ValueIdx
open Cert.KernelIdeal Cert.KernelIdeal.Gen

abbrev Vals := (c : Dev nD) → (b : Ref sig .tc) → Buf (Elt Ideal) ((c : Thread nD τ).loc b)

theorem pay1_apply (j : S1024x64.Idx) : (k1_pay1 (F := Ideal)) j = 0 := by
  unfold k1_pay1
  rw [shapeCast_self]
  show Ideal.ofBits .f32 0x00000000#32 = 0
  exact Ideal.ofBits_zero_f32

theorem matmul1_apply (A : FVec Ideal S1024x1024 .bf16) (B : FVec Ideal S1024x64 .bf16) (a : Fin 1024) (b : Fin 64) :
    matmul dot_S1024x1024_S1024x64_S1024x64_1_0_0_1_n_n none A B (constant S1024x64 .f32 0x00000000#32) (ix2 a b)
      = ∑ r : Fin 1024, A (ix2 a r) * B (ix2 r b) := by
  show FloatOps.matmul _ none A B (constant S1024x64 .f32 0x00000000#32) (ix2 a b) = _
  rw [Ideal.matmul_constant_zero_apply,
    ← Equiv.sum_comp (contrEquiv1 dot_S1024x1024_S1024x64_S1024x64_1_0_0_1_n_n 1024 rfl rfl).symm]
  refine Finset.sum_congr rfl fun r _ => ?_
  have c2 := contrEquiv1_symm_val dot_S1024x1024_S1024x64_S1024x64_1_0_0_1_n_n 1024 rfl rfl r
  have l2 : dot_S1024x1024_S1024x64_S1024x64_1_0_0_1_n_n.lhsIdx (ix2 a b) ((contrEquiv1 _ 1024 rfl rfl).symm r) = ix2 a r := by
    funext ax; apply Fin.ext
    match ax with
    | ⟨0, _⟩ => simp [DotDims.lhsIdx, dot_S1024x1024_S1024x64_S1024x64_1_0_0_1_n_n]; rfl
    | ⟨1, _⟩ => simp [DotDims.lhsIdx, dot_S1024x1024_S1024x64_S1024x64_1_0_0_1_n_n]; exact c2
  have r2 : dot_S1024x1024_S1024x64_S1024x64_1_0_0_1_n_n.rhsIdx (ix2 a b) ((contrEquiv1 _ 1024 rfl rfl).symm r) = ix2 r b := by
    funext ax; apply Fin.ext
    match ax with
    | ⟨0, _⟩ => simp [DotDims.rhsIdx, dot_S1024x1024_S1024x64_S1024x64_1_0_0_1_n_n]; exact c2
    | ⟨1, _⟩ => simp [DotDims.rhsIdx, dot_S1024x1024_S1024x64_S1024x64_1_0_0_1_n_n]; rfl
  rw [l2, r2]

theorem pay2_apply (i : grid1.Coords) (v7 : Vec Ideal S1x1024 .i32) (v9 : Vec Ideal S1x1024 .f32)
    (v18 : Vec Ideal S1024x64 .bf16) (v22 : Vec Ideal S1024x64 .f32) (q : Fin 1024) (f : Fin 64) :
    k1_pay2 (F := Ideal) i v7 v9 v18 v22 (ix2 q f)
      = v22 (ix2 q f) + ∑ r : Fin 1024,
          (if BitVec.ofNat 32 (i 1).val * 1024#32 + BitVec.ofNat 32 r.val = v7 (ix2 (0 : Fin 1) q) then v9 (ix2 (0 : Fin 1) q) else 0)
            * v18 (ix2 r f) := by
  unfold k1_pay2
  simp only [shapeCast_self]
  rw [addf_apply, matmul1_apply]
  refine congrArg _ (Finset.sum_congr rfl fun r _ => ?_)
  rw [transpose_ix2_apply, truncf_apply, select_apply, broadcastTo_1b_ab_apply, broadcast_apply]
  congr 1
  have e1 : (cmpi CmpIPredicate.eq (addi (broadcast S1024x1024 (Scalar.muli (BitVec.ofNat 32 (i 1).val) 1024#32)) (iota Kind.tc S1024x1024 32 [0] iota_S1024x1024_d0_w32)) (broadcastTo S1024x1024 v7 broadcasts_S1x1024_S1024x1024) (ix2 r q))
      = BitVec.ofBool (BitVec.ofNat 32 (i 1).val * 1024#32 + BitVec.ofNat 32 r.val == v7 (ix2 (0 : Fin 1) q)) := by
    show BitVec.ofBool (_ + iota Kind.tc S1024x1024 32 [0] iota_S1024x1024_d0_w32 (ix2 r q) == broadcastTo S1024x1024 v7 broadcasts_S1x1024_S1024x1024 (ix2 r q)) = _
    rw [iota_single_apply, broadcastTo_1b_ab_apply]; rfl
  rw [e1]
  by_cases h : BitVec.ofNat 32 (i 1).val * 1024#32 + BitVec.ofNat 32 r.val = v7 (ix2 (0 : Fin 1) q)
  · rw [if_pos h, show (BitVec.ofNat 32 (i 1).val * 1024#32 + BitVec.ofNat 32 r.val == v7 (ix2 (0 : Fin 1) q)) = true from beq_iff_eq.mpr h]
    exact select_one _ _
  · rw [if_neg h, show (BitVec.ofNat 32 (i 1).val * 1024#32 + BitVec.ofNat 32 r.val == v7 (ix2 (0 : Fin 1) q)) = false from beq_eq_false_iff_ne.mpr h]
    exact (select_zero _ _).trans Ideal.ofBits_zero_f32

theorem node_word (k r : Nat) : BitVec.ofNat 32 k * 1024#32 + BitVec.ofNat 32 r = BitVec.ofNat 32 (k * 1024 + r) := by
  rw [show (1024#32 : BitVec 32) = BitVec.ofNat 32 1024 from rfl, ← BitVec.ofNat_mul, ← BitVec.ofNat_add]

/-- A sum over `p` tiles of sums over a tile's 1024 rows is the sum over all `1024 p` rows. -/
theorem sum_tiles {M : Type*} [AddCommMonoid M] (p : Nat) (g : Nat → M) :
    ∑ s ∈ Finset.range p, ∑ r : Fin 1024, g (s * 1024 + r.val) = ∑ n : Fin (p * 1024), g n.val := by
  rw [← Fin.sum_univ_eq_sum_range (fun s => ∑ r : Fin 1024, g (s * 1024 + r.val)) p,
    ← Equiv.sum_comp (finProdFinEquiv (m := p) (n := 1024)) (fun n : Fin (p * 1024) => g n.val), Fintype.sum_prod_type]
  refine Finset.sum_congr rfl fun s _ => Finset.sum_congr rfl fun r _ => ?_
  congr 1
  show s.val * 1024 + r.val = r.val + 1024 * s.val
  omega

theorem hz2 : (![0, 0] : Fin 2 → Nat) = fun _ => 0 := funext fun a => by fin_cases a <;> rfl

/-- An accumulator zeroed at the multiples of `J` and stepped by `acc ↦ acc + M n` at point `n` holds, at `t`, the addends of `t`'s run up to `t`. -/
theorem acc_sum {ι β : Type*} [AddCommMonoid β] {N : Nat} (f : (n : Nat) → n < N → ι → β) (J : Nat) (hJ : 0 < J)
    (g : (n : Nat) → n < N → (ι → β) → ι → β) (z : ι → β) (M : Nat → ι → β) (hz : ∀ i, z i = 0)
    (h0 : ∀ (n : Nat) (h : n < N), n % J = 0 → f n h = g n h z)
    (hs : ∀ (n : Nat) (h : n + 1 < N), ¬(n + 1) % J = 0 → f (n + 1) h = g (n + 1) h (f n (Nat.lt_of_succ_lt h)))
    (hg : ∀ (n : Nat) (h : n < N) (acc : ι → β) (i : ι), g n h acc i = acc i + M n i) (t : Nat) (ht : t < N) (i : ι) :
    f t ht i = ∑ s ∈ Finset.range (t % J + 1), M (J * (t / J) + s) i := by
  have h' : J * (t / J) + t % J < N := by rw [Nat.div_add_mod]; exact ht
  refine (congrFun (Pipeline.eq_accAt_of_mod f J (fun n h => g n h z) g h0 hs hJ t ht h') i).trans ?_
  refine (Pipeline.accAt_add_apply _ g (fun _ => 0) M (J * (t / J)) (t % J) (fun h i => by rw [hg, hz]) (fun n h acc i _ _ => hg n h acc i)
    (t % J) (Nat.le_refl _) h' i).trans (zero_add _)

end Cert.KernelIdeal.RegVal

end
-- ==== Proof.Val.Reg0Val.lean ====
import proofs.«118320_j52716428591833_1_alg».proof.Proof.KI.Reg0
import proofs.«118320_j52716428591833_1_alg».proof.Proof.Val.Reg1Pay

noncomputable section

namespace Cert.KernelIdeal.RegVal

open Idealize.ShloMosaic Idealize.ShloMosaic.TcCoe Idealize.SL.Sem
open Idealize.ShloMosaic.ValueIdx
open Cert.KernelIdeal Cert.KernelIdeal.Gen Cert.KernelIdeal.Hand

variable (V : Vals)

theorem lhsIdx0 (j : S1024x64.Idx) (k : Fin 64) :
    dot_S1024x64_S64x64_S1024x64_1_0_0_1_n_n.lhsIdx j ((contrEquiv1 dot_S1024x64_S64x64_S1024x64_1_0_0_1_n_n 64 rfl rfl).symm k) = ix2 (j 0) k := by
  have c2 := contrEquiv1_symm_val dot_S1024x64_S64x64_S1024x64_1_0_0_1_n_n 64 rfl rfl k
  funext ax; apply Fin.ext
  match ax with
  | ⟨0, _⟩ => simp [DotDims.lhsIdx, dot_S1024x64_S64x64_S1024x64_1_0_0_1_n_n]; rfl
  | ⟨1, _⟩ => simp [DotDims.lhsIdx, dot_S1024x64_S64x64_S1024x64_1_0_0_1_n_n]; exact c2
theorem rhsIdx0 (j : S1024x64.Idx) (k : Fin 64) :
    dot_S1024x64_S64x64_S1024x64_1_0_0_1_n_n.rhsIdx j ((contrEquiv1 dot_S1024x64_S64x64_S1024x64_1_0_0_1_n_n 64 rfl rfl).symm k) = ix2 k (j 1) := by
  have c2 := contrEquiv1_symm_val dot_S1024x64_S64x64_S1024x64_1_0_0_1_n_n 64 rfl rfl k
  funext ax; apply Fin.ext
  match ax with
  | ⟨0, _⟩ => simp [DotDims.rhsIdx, dot_S1024x64_S64x64_S1024x64_1_0_0_1_n_n]; exact c2
  | ⟨1, _⟩ => simp [DotDims.rhsIdx, dot_S1024x64_S64x64_S1024x64_1_0_0_1_n_n]; rfl

theorem pay0_apply (x0 : Vec Ideal S1024x64 .f32) (x1 : Vec Ideal S64x64 .f32) (j : S1024x64.Idx) :
    (k0_pay1 x0 x1 j : EReal) = ∑ k : Fin 64, (x0 (ix2 (j 0) k) : EReal) * (x1 (ix2 k (j 1)) : EReal) := by
  show FloatOps.matmul dot_S1024x64_S64x64_S1024x64_1_0_0_1_n_n none
      (truncf .bf16 (shapeCast S1024x64 x0 shapeCasts_S1024x64_S1024x64) bitsLt_bf16_f32 : FVec Ideal S1024x64 .bf16)
      (truncf .bf16 x1 bitsLt_bf16_f32 : FVec Ideal S64x64 .bf16) (constant S1024x64 .f32 0x00000000#32) j = _
  rw [Ideal.matmul_constant_zero_apply, ← Equiv.sum_comp (contrEquiv1 dot_S1024x64_S64x64_S1024x64_1_0_0_1_n_n 64 rfl rfl).symm]
  refine Finset.sum_congr rfl fun k _ => ?_
  rw [lhsIdx0, rhsIdx0, shapeCast_self]
  rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (x : S1024x64.Idx) (k : S50176x64.Idx)
    (hk0 : (k 0).val = 1024 * t.val + (x 0).val) (hk1 : (k 1).val = (x 1).val) :
    (iblk0 V c 0 t : Vec Ideal S1024x64 .f32) x = (V c main_v30 : S50176x64.Idx → EReal) k := by
  obtain ⟨e0, e1, -, -, -, -⟩ := idx_facts0 t
  unfold iblk0
  rw [View.read_apply]
  show V c main_v30 _ = V c main_v30 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 64 + 1 * (x 1).val = (k 1).val; rw [e1, hk1]; omega

theorem iblk0_1_apply (c : Dev nD) (t : Fin cfg0.N) (x : S64x64.Idx) (k : S64x64.Idx)
    (hk0 : (k 0).val = (x 0).val) (hk1 : (k 1).val = (x 1).val) :
    (iblk0 V c 1 t : Vec Ideal S64x64 .f32) x = (V c main_arg1 : S64x64.Idx → EReal) k := by
  obtain ⟨-, -, e0, e1, -, -⟩ := idx_facts0 t
  unfold iblk0
  rw [View.read_apply]
  show V c main_arg1 _ = V c main_arg1 _
  congr 1
  funext a
  apply Fin.ext
  match a with
  | ⟨0, _⟩ => show win0_1.index t (0 : Fin 2) * 64 + 1 * (x 0).val = (k 0).val; rw [e0, hk0]; omega
  | ⟨1, _⟩ => show win0_1.index t (1 : Fin 2) * 64 + 1 * (x 1).val = (k 1).val; rw [e1, hk1]; omega

abbrev feat0 (c : Dev nD) : S50176x64.Idx → EReal := V c main_v30
abbrev wt0 (c : Dev nD) : S64x64.Idx → EReal := V c main_arg1

def G0 (c : Dev nD) : S50176x64.Idx → EReal := fun j =>
  ∑ k : Fin 64, feat0 V c (ix2 (j 0) k) * wt0 V c (ix2 k (j 1))

theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz2]
  simp only [View.ld_unit_zero (S := S1024x64) hz2, View.ld_unit_zero (S := S64x64) hz2]
  obtain ⟨-, -, -, -, e0, e1⟩ := idx_facts0 t
  funext y
  show (k0_pay1 (iblk0 V c 0 t) (iblk0 V c 1 t) y : EReal) = G0 V c (((cfg0.win 2).blk t).view.emb y)
  rw [pay0_apply]
  show _ = ∑ k : Fin 64, feat0 V c (ix2 ((((cfg0.win 2).blk t).view.emb y) 0) k) * wt0 V c (ix2 k ((((cfg0.win 2).blk t).view.emb y) 1))
  refine Finset.sum_congr rfl fun k _ => ?_
  rw [iblk0_0_apply V c t (ix2 (y 0) k) (ix2 ((((cfg0.win 2).blk t).view.emb y) 0) k)
      (by show win0_2.index t (0 : Fin 2) * 1024 + 1 * (y 0).val = 1024 * t.val + (y 0).val; rw [e0]; omega) rfl,
    iblk0_1_apply V c t (ix2 k (y 1)) (ix2 k ((((cfg0.win 2).blk t).view.emb y) 1)) rfl
      (by show win0_2.index t (1 : Fin 2) * 64 + 1 * (y 1).val = (y 1).val; rw [e1]; omega)]

theorem flush0_2' : ∀ t : Fin cfg0.N, (cfg0.win 2).flush t = true :=
  (by decide +kernel : ∀ t : Fin grid0.N, win0_2.flush t = true)

theorem cover0 (i : S50176x64.Idx) : ∃ t : Fin cfg0.N, (cfg0.win 2).flush t = true ∧ i ∈ ((cfg0.win 2).blk t).view.set := by
  have hN : cfg0.N = 49 := N_0
  have hi0 : (i 0).val < 50176 := idx2_lt0 i
  have hi1 : (i 1).val < 64 := idx2_lt1 i
  let t : Fin cfg0.N := ⟨(i 0).val / 1024, by rw [hN]; omega⟩
  have ht : t.val = (i 0).val / 1024 := rfl
  obtain ⟨-, -, -, -, e0, e1⟩ := idx_facts0 t
  refine ⟨t, flush0_2' t, ?_⟩
  show i ∈ ((View.whole main_v37).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 64 ≤ (i 1).val ∧ (i 1).val < win0_2.index t (1 : Fin 2) * 64 + 64
    rw [e1]; omega

theorem final0 (c : Dev nD) : (dat0 (F := Ideal) V c).arrAt 2 cfg0.N = G0 V c :=
  (dat0 V c).arrAt_eq_of_cover 2 (G0 V c) (fun t _ => flushed0_eq V c t) cover0

end Cert.KernelIdeal.RegVal

end
-- ==== Proof.Val.KernelHost.lean ====
import proofs.«118320_j52716428591833_1_alg».proof.Proof.Gen.KernelIdeal.Regions
import proofs.«118320_j52716428591833_1_alg».proof.Proof.Val.HostChain
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

noncomputable section

namespace Cert.KernelIdeal.KVal

open Idealize.ShloMosaic Idealize.ShloMosaic.TcCoe Idealize.SL.Sem Cert.KernelIdeal Cert.KernelIdeal.Gen Cert.Gcn
open Idealize.ShloMosaic.ValueIdx

section AtIndex
variable {α : Type}

theorem first_scalar : Shape.Idx.first h_S_ = (ix0 : S_.Idx) := funext fun d => d.elim0

-- A list padded at the end and read as one row: the list below its length, the padding value from there on.
theorem row_pad_apply (x : S850000.Idx → α) (v : S_.Idx → α) (e : Fin 850944) :
    shapeCast S1x850944 (pad S850944 ![0] ![944] ![0] x v pads_S850000_S850944_09440 h_S_) shapeCasts_S850944_S1x850944 (ix2 (0 : Fin 1) e)
      = if h : e.val < 850000 then x (ix1 ⟨e.val, h⟩) else v ix0 := by
  rw [shapeCast_a_1a_apply]
  split
  · next h =>
    exact pad_apply_of_inside _ _ _ x v _ h_S_ (ix1 e) (ix1 ⟨e.val, h⟩) (fun a => by
      match a with
      | ⟨0, _⟩ => show e.val = 0 + e.val * (0 + 1); omega)
  · next h =>
    rw [pad_apply_of_not_inside _ _ _ x v _ h_S_ (ix1 e) (0 : Fin 1) (by
      show ¬(0 ≤ e.val ∧ (e.val - 0) % (0 + 1) = 0 ∧ (e.val - 0) / (0 + 1) < 850000)
      omega), first_scalar]

-- Rows padded below: the array above its last row, the padding value from there on.
theorem pad_feat_apply (x : S50000x64.Idx → α) (v : S_.Idx → α) (n : Fin 50176) (k : Fin 64) :
    pad S50176x64 ![0, 0] ![176, 0] ![0, 0] x v pads_S50000x64_S50176x64_01760_000 h_S_ (ix2 n k)
      = if h : n.val < 50000 then x (ix2 ⟨n.val, h⟩ k) else v ix0 := by
  split
  · next h =>
    exact pad_apply_of_inside _ _ _ x v _ h_S_ (ix2 n k) (ix2 ⟨n.val, h⟩ k) (fun a => by
      match a with
      | ⟨0, _⟩ => show n.val = 0 + n.val * (0 + 1); omega
      | ⟨1, _⟩ => show k.val = 0 + k.val * (0 + 1); omega)
  · next h =>
    rw [pad_apply_of_not_inside _ _ _ x v _ h_S_ (ix2 n k) (0 : Fin 2) (by
      show ¬(0 ≤ n.val ∧ (n.val - 0) % (0 + 1) = 0 ∧ (n.val - 0) / (0 + 1) < 50000)
      omega), first_scalar]

end AtIndex

-- A source is a word of the table's row 0 or a self loop's node, both below 50000.
theorem rowOf_lt (ei : IVec S2x800000 32) (h : ∀ e : Fin 800000, (ei (ix2 (0 : Fin 2) e)).toNat < 50000) (e : Fin 850000) :
    (rowOf ei (ix1 e)).toNat < 50000 := by
  have := e.isLt
  unfold rowOf
  by_cases he : e.val < 800000
  · rw [concatenate_pair_apply_left (t := S850000) (s₁ := S800000) (s₂ := S50000) (0 : Fin 1) _ _ _ (ix1 e) rfl
      (ix1 ⟨e.val, he⟩) (fun d => by
        match d with
        | ⟨0, _⟩ => rfl), shapeCast_1a_a_apply, slice2_axis0_apply 0 ei _ 0 _ 0 rfl]
    exact h _
  · rw [concatenate_pair_apply_right (t := S850000) (s₁ := S800000) (s₂ := S50000) (0 : Fin 1) _ _ _ (ix1 e) rfl rfl
      (ix1 ⟨e.val - 800000, by omega⟩) (fun d hd => by
        match d with
        | ⟨0, _⟩ => exact absurd rfl hd) (by show e.val - 800000 + 800000 = e.val; omega)]
    show (BitVec.ofNat 32 (e.val - 800000)).toNat < 50000
    rw [BitVec.toNat_ofNat, Nat.mod_eq_of_lt (by omega)]
    omega

section Stretches
variable (W : Valuation τ sig (Elt Ideal))

theorem after0_v3 : (StableHlo.after hostOps0 W main_v3 : IVec S850000 32) = rowOf (W main_arg3) := by
  dsimp only [hostOps0]; after_results; all_goals rfl
theorem after0_v6 : (StableHlo.after hostOps0 W main_v6 : IVec S850000 32) = colOf (W main_arg3) := by
  dsimp only [hostOps0]; after_results; all_goals rfl
theorem after0_v12 : (StableHlo.after hostOps0 W main_v12 : IVec S50000 1)
    = cmpf .ogt (degOf (F := Ideal) (W main_arg3)) (broadcastInDim S50000 ![] bcast_S_S50000 (constant S_ .f32 0x00000000#32)) := by
  dsimp only [hostOps0]; after_results; all_goals rfl
theorem after0_v13 : (StableHlo.after hostOps0 W main_v13 : FVec Ideal S50000 .f32) = Host.rsqrt (degOf (F := Ideal) (W main_arg3)) := by
  dsimp only [hostOps0]; after_results; all_goals rfl
theorem after0_cst2 : (StableHlo.after hostOps0 W main_cst_2 : FVec Ideal S_ .f32) = constant (F := Ideal) S_ .f32 0x00000000#32 := by
  dsimp only [hostOps0]; after_results; all_goals rfl

theorem after1_v14 (p : IVec S50000 1) (q : FVec Ideal S50000 .f32) (z : FVec Ideal S_ .f32) (hp : W main_v12 = p)
    (hq : W main_v13 = q) (hz : W main_cst_2 = z) : (StableHlo.after hostOps0_1 W main_v14 : FVec Ideal S50000 .f32)
    = select p q (broadcastInDim S50000 ![] bcast_S_S50000 z) := by
  subst hp hq hz
  dsimp only [hostOps0_1]; after_results; all_goals rfl

theorem after2_v29 (d : FVec Ideal S50000 .f32) (r cl : IVec S850000 32) (hd : W main_v14 = d) (hr : W main_v3 = r)
    (hc : W main_v6 = cl) : (StableHlo.after hostOps0_2 W main_v29 : FVec Ideal S850000 .f32)
    = mulf
        (Host.gather gather_S50000_S850000x1_S850000_n_0_n_n_0_1_1 d
          (broadcastInDim S850000x1 ![0] bcast_S850000_S850000x1_0 (wrapIdx r)))
        (Host.gather gather_S50000_S850000x1_S850000_n_0_n_n_0_1_1 d
          (broadcastInDim S850000x1 ![0] bcast_S850000_S850000x1_0 (wrapIdx cl))) := by
  subst hd hr hc
  dsimp only [hostOps0_2]; after_results_simp; all_goals rfl
theorem after2_c6 : (StableHlo.after hostOps0_2 W main_c_6 : IVec S_ 32) = constantI S_ 32 0#32 := by
  dsimp only [hostOps0_2]; after_results; all_goals rfl
theorem after3_v30 (x : FVec Ideal S50000x64 .f32) (z : IVec S_ 32) (hx : W main_arg0 = x) (hz : W main_c_6 = z) :
    (StableHlo.after hostOps0_3 W main_v30 : FVec Ideal S50176x64 .f32)
    = pad S50176x64 ![0, 0] ![176, 0] ![0, 0] x (sitofp .f32 z) pads_S50000x64_S50176x64_01760_000 h_S_ := by
  subst hx hz
  dsimp only [hostOps0_3]; after_results; all_goals rfl

theorem after45_v31 (x : IVec S850000 32) (hx : W main_v3 = x) :
    (StableHlo.after hostOps0_5 (StableHlo.after hostOps0_4 W) main_v31 : IVec S850944 32)
    = pad S850944 ![0] ![944] ![0] x (constantI S_ 32 0#32) pads_S850000_S850944_09440 h_S_ := by
  subst hx
  dsimp only [hostOps0_4, hostOps0_5]; after_results; all_goals rfl
theorem after67_v32 (x : IVec S850000 32) (hx : W main_v6 = x) :
    (StableHlo.after hostOps0_7 (StableHlo.after hostOps0_6 W) main_v32 : IVec S850944 32)
    = pad S850944 ![0] ![944] ![0] x (constantI S_ 32 0#32) pads_S850000_S850944_09440 h_S_ := by
  subst hx
  dsimp only [hostOps0_6, hostOps0_7]; after_results; all_goals rfl
theorem after89_v33 (x : FVec Ideal S850000 .f32) (hx : W main_v29 = x) :
    (StableHlo.after hostOps0_9 (StableHlo.after hostOps0_8 W) main_v33 : FVec Ideal S850944 .f32)
    = pad S850944 ![0] ![944] ![0] x (sitofp .f32 (constantI S_ 32 0#32)) pads_S850000_S850944_09440 h_S_ := by
  subst hx
  dsimp only [hostOps0_8, hostOps0_9]; after_results; all_goals rfl

theorem after10_v34 (y : IVec S850944 32) (hy : W main_v31 = y) : (StableHlo.after hostOps0_10 W main_v34 : IVec S1x850944 32)
    = shapeCast S1x850944 y shapeCasts_S850944_S1x850944 := by
  subst hy
  dsimp only [hostOps0_10]; after_results; all_goals rfl
theorem after10_v35 (y : IVec S850944 32) (hy : W main_v32 = y) : (StableHlo.after hostOps0_10 W main_v35 : IVec S1x850944 32)
    = shapeCast S1x850944 y shapeCasts_S850944_S1x850944 := by
  subst hy
  dsimp only [hostOps0_10]; after_results; all_goals rfl
theorem after10_v36 (y : FVec Ideal S850944 .f32) (hy : W main_v33 = y) : (StableHlo.after hostOps0_10 W main_v36 : FVec Ideal S1x850944 .f32)
    = shapeCast S1x850944 y shapeCasts_S850944_S1x850944 := by
  subst hy
  dsimp only [hostOps0_10]; after_results; all_goals rfl

end Stretches

variable (m : (ℓ : Loc nD τ sig) → Buf (Elt Ideal) ℓ) (c : Dev nD)

theorem V11_arg1 : V11 m c main_arg1 = m ((c : Thread nD τ).loc main_arg1) :=
  (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

theorem V1_v3 : (V1 m c main_v3 : IVec S850000 32) = rowOf (m ((c : Thread nD τ).loc main_arg3)) := after0_v3 (V0 m c)
theorem V1_v6 : (V1 m c main_v6 : IVec S850000 32) = colOf (m ((c : Thread nD τ).loc main_arg3)) := after0_v6 (V0 m c)

theorem V3_v29 : (V3 m c main_v29 : FVec Ideal S850000 .f32) = normOf (F := Ideal) (m ((c : Thread nD τ).loc main_arg3)) :=
  after2_v29 (V2 m c) _ _ _ (after1_v14 (V1 m c) _ _ _ (after0_v12 (V0 m c)) (after0_v13 (V0 m c)) (after0_cst2 (V0 m c)))
    ((V2_of m c main_v3 (by decide)).trans (V1_v3 m c)) ((V2_of m c main_v6 (by decide)).trans (V1_v6 m c))

theorem pad_value_zero : (sitofp (F := Ideal) .f32 (constantI S_ 32 0#32) : FVec Ideal S_ .f32) ix0 = (0 : EReal) :=
  sitofp_zero

theorem V11_v30_apply (n : Fin 50176) (k : Fin 64) :
    (V11 m c main_v30 : S50176x64.Idx → EReal) (ix2 n k)
      = (if h : n.val < 50000 then (m ((c : Thread nD τ).loc main_arg0) : S50000x64.Idx → EReal) (ix2 ⟨n.val, h⟩ k) else 0 : EReal) := by
  rw [(V11_of m c main_v30 (by decide)).trans <| (V10_of m c main_v30 (by decide)).trans <| (V9_of m c main_v30 (by decide)).trans <| (V8_of m c main_v30 (by decide)).trans <| (V7_of m c main_v30 (by decide)).trans <| (V6_of m c main_v30 (by decide)).trans <| (V5_of m c main_v30 (by decide)).trans <| after3_v30 (V3 m c) _ _
    ((V3_of m c main_arg0 (by decide)).trans <| (V2_of m c main_arg0 (by decide)).trans <| (V1_of m c main_arg0 (by decide)).trans <| rfl) (after2_c6 (V2 m c)), pad_feat_apply]
  split
  · rfl
  · exact pad_value_zero

theorem V11_v34_apply (e : Fin 850944) :
    (V11 m c main_v34 : S1x850944.Idx → BitVec 32) (ix2 (0 : Fin 1) e)
      = if h : e.val < 850000 then rowOf (m ((c : Thread nD τ).loc main_arg3)) (ix1 ⟨e.val, h⟩) else 0#32 :=
  (congrFun (after10_v34 (V10 m c) _ <| (V10_of m c main_v31 (by decide)).trans <| (V9_of m c main_v31 (by decide)).trans <| (V8_of m c main_v31 (by decide)).trans <| (V7_of m c main_v31 (by decide)).trans <| after45_v31 (V4 m c) _
    ((V4_of m c main_v3 (by decide)).trans <| (V3_of m c main_v3 (by decide)).trans <| (V2_of m c main_v3 (by decide)).trans <| V1_v3 m c)) _).trans (row_pad_apply _ _ e)

theorem V11_v35_apply (e : Fin 850944) :
    (V11 m c main_v35 : S1x850944.Idx → BitVec 32) (ix2 (0 : Fin 1) e)
      = if h : e.val < 850000 then colOf (m ((c : Thread nD τ).loc main_arg3)) (ix1 ⟨e.val, h⟩) else 0#32 :=
  (congrFun (after10_v35 (V10 m c) _ <| (V10_of m c main_v32 (by decide)).trans <| (V9_of m c main_v32 (by decide)).trans <| after67_v32 (V6 m c) _
    ((V6_of m c main_v6 (by decide)).trans <| (V5_of m c main_v6 (by decide)).trans <| (V4_of m c main_v6 (by decide)).trans <| (V3_of m c main_v6 (by decide)).trans <| (V2_of m c main_v6 (by decide)).trans <| V1_v6 m c)) _).trans (row_pad_apply _ _ e)

theorem V11_v36_apply (e : Fin 850944) :
    (V11 m c main_v36 : S1x850944.Idx → EReal) (ix2 (0 : Fin 1) e)
      = (if h : e.val < 850000 then normOf (F := Ideal) (m ((c : Thread nD τ).loc main_arg3)) (ix1 ⟨e.val, h⟩) else 0 : EReal) := by
  refine (congrFun (after10_v36 (V10 m c) _ <| after89_v33 (V8 m c) _ ((V8_of m c main_v29 (by decide)).trans <| (V7_of m c main_v29 (by decide)).trans <| (V6_of m c main_v29 (by decide)).trans <| (V5_of m c main_v29 (by decide)).trans <| (V4_of m c main_v29 (by decide)).trans <| V3_v29 m c)) _).trans ((row_pad_apply _ _ e).trans ?_)
  split
  · rfl
  · exact pad_value_zero

end Cert.KernelIdeal.KVal

end
-- ==== Proof.Val.Algebra.lean ====
import Idealize.ShloMosaic.PureOps.Ideal
import Mathlib.Algebra.BigOperators.Group.Finset.Basic
import Mathlib.Algebra.BigOperators.Fin

open scoped BigOperators

namespace Cert.Gcn

noncomputable section

theorem ofNat_eq_iff_eq_toNat (n : Nat) (hn : n < 2 ^ 32) (w : BitVec 32) :
    BitVec.ofNat 32 n = w ↔ n = w.toNat := by
  rw [← BitVec.toNat_inj, BitVec.toNat_ofNat, Nat.mod_eq_of_lt hn]

-- A one-hot sum keeps the one term whose index is the word's value.
theorem inner_collapse (g : Fin 50176 → EReal) (w : BitVec 32) (c : EReal)
    (hw : w.toNat < 50176) :
    (∑ n : Fin 50176, (if BitVec.ofNat 32 n.val = w then c else 0) * g n)
      = c * g ⟨w.toNat, hw⟩ := by
  rw [Finset.sum_eq_single (⟨w.toNat, hw⟩ : Fin 50176) (fun n _ hne => ?_) (fun h => absurd (Finset.mem_univ _) h),
    if_pos ((ofNat_eq_iff_eq_toNat _ w.isLt w).2 rfl)]
  rw [if_neg fun h => hne (Fin.ext ((ofNat_eq_iff_eq_toNat n.val (by have := n.isLt; omega) w).1 h)), zero_mul]

theorem inner_zero (g : Fin 50176 → EReal) (w : BitVec 32) :
    (∑ n : Fin 50176, (if BitVec.ofNat 32 n.val = w then (0 : EReal) else 0) * g n) = 0 :=
  Finset.sum_eq_zero fun n _ => by rw [ite_self, zero_mul]

-- A sum whose terms vanish from 850000 on is the sum over the first 850000.
theorem reindex (f : Fin 850944 → EReal)
    (hf : ∀ e : Fin 850944, 850000 ≤ e.val → f e = 0) :
    ∑ e : Fin 850944, f e
      = ∑ e : Fin 850000, f (Fin.castLE (by omega : 850000 ≤ 850944) e) :=
  (Fin.sum_univ_add (a := 850000) (b := 944) f).trans
    ((congrArg _ (Finset.sum_eq_zero fun i _ => hf _ (Nat.le_add_right _ _))).trans (add_zero _))

-- Padded edges have weight 0; a true edge's gather keeps its source row; the scatter mask is the filter on targets.
theorem onehot_gather_scatter
    (feat : Fin 50000 → Fin 64 → EReal) (W : Fin 64 → Fin 64 → EReal)
    (row col : Fin 850000 → BitVec 32) (nrm : Fin 850000 → EReal)
    (hrow : ∀ e, (row e).toNat < 50000) (r : Fin 50000) (d : Fin 64) :
    (∑ e : Fin 850944, (if BitVec.ofNat 32 r.val = (if h : e.val < 850000 then col ⟨e.val, h⟩ else 0#32) then (1 : EReal) else 0) *
        (∑ n : Fin 50176, (if BitVec.ofNat 32 n.val = (if h : e.val < 850000 then row ⟨e.val, h⟩ else 0#32) then (if h : e.val < 850000 then nrm ⟨e.val, h⟩ else 0) else 0) *
          (∑ k : Fin 64, (if h : n.val < 50000 then feat ⟨n.val, h⟩ k else 0) * W k d)))
      = ∑ e ∈ Finset.univ.filter (fun e : Fin 850000 => col e = BitVec.ofNat 32 r.val),
          (∑ k : Fin 64, feat ⟨(row e).toNat, hrow e⟩ k * W k d) * nrm e := by
  rw [reindex]
  · rw [Finset.sum_filter]
    refine Finset.sum_congr rfl fun e _ => ?_
    have he : (Fin.castLE (by omega : 850000 ≤ 850944) e).val < 850000 := e.isLt
    have hw : (row e).toNat < 50176 := lt_trans (hrow e) (by norm_num)
    rw [dif_pos he, dif_pos he, dif_pos he, show (⟨(Fin.castLE (by omega : 850000 ≤ 850944) e).val, he⟩ : Fin 850000) = e from Fin.ext rfl,
      inner_collapse _ (row e) (nrm e) hw]
    simp only [dif_pos (show ((⟨(row e).toNat, hw⟩ : Fin 50176)).val < 50000 from hrow e)]
    by_cases hc : col e = BitVec.ofNat 32 r.val
    · rw [if_pos hc, if_pos hc.symm, one_mul, mul_comm]
    · rw [if_neg hc, if_neg (fun h => hc h.symm), zero_mul]
  · intro e he
    have hnot : ¬ e.val < 850000 := by omega
    rw [dif_neg hnot, dif_neg hnot, dif_neg hnot, inner_zero, mul_zero]

end

end Cert.Gcn
-- ==== Proof.Val.KernelVal.lean ====
import proofs.«118320_j52716428591833_1_alg».proof.Proof.KI.RunAll
import proofs.«118320_j52716428591833_1_alg».proof.Proof.Val.Reg0Val
import proofs.«118320_j52716428591833_1_alg».proof.Proof.Val.KernelHost
import proofs.«118320_j52716428591833_1_alg».proof.Proof.Val.Algebra

noncomputable section

namespace Cert.KernelIdeal.KVal

open Idealize.ShloMosaic Idealize.ShloMosaic.TcCoe Idealize.ShloMosaic.Tactic Idealize.SL.Sem
open Idealize.ShloMosaic.ValueIdx
open Cert.KernelIdeal Cert.KernelIdeal.Gen Cert.KernelIdeal.Hand Cert.KernelIdeal.RegVal Cert.Gcn

abbrev rdE (s : Shape) (f : s.Idx → EReal) : s.Idx → EReal := f
abbrev rdW (s : Shape) (f : s.Idx → BitVec 32) : s.Idx → BitVec 32 := f

theorem host3_eq (Wx : Valuation τ sig (Elt Ideal)) :
    StableHlo.after hostOps3 Wx (Proc.devRef .tc main_v43)
      = (addf (F := Ideal) (extractStridedSlice S50000x64 ![0, 0] (Wx (Proc.devRef .tc main_v39) : FVec Ideal S50176x64 .f32) slices_S50176x64_S50000x64_0_0)
          (broadcastInDim S50000x64 ![0, 1] bcast_S1x64_S50000x64_0_1
            (broadcastInDim S1x64 ![1] bcast_S64_S1x64_1 (Wx (Proc.devRef .tc main_arg2) : FVec Ideal S64 .f32))) : FVec Ideal S50000x64 .f32) := by
  dsimp only [hostOps3]
  after_results <;> rfl

/-- The result is the first 50000 rows of the scatter plus the bias along every row. -/
theorem host3_apply (Wx : Valuation τ sig (Elt Ideal)) (r : Fin 50000) (d : Fin 64) :
    rdE S50000x64 (StableHlo.after hostOps3 Wx (Proc.devRef .tc main_v43)) (ix2 r d)
      = rdE S50176x64 (Wx (Proc.devRef .tc main_v39)) (ix2 ⟨r.val, Nat.lt_trans r.isLt (by decide)⟩ d)
        + rdE S64 (Wx (Proc.devRef .tc main_arg2)) (ix1 d) := by
  rw [host3_eq]
  dsimp only [rdE]
  rw [addf_apply,
    slice2_axis0_apply 0 _ slices_S50176x64_S50000x64_0_0 r d ⟨r.val, Nat.lt_trans r.isLt (by decide)⟩ (Nat.zero_add _).symm,
    broadcastInDim_oneRow_apply,
    broadcastInDim_apply ![1] bcast_S64_S1x64_1 _ (ix2 (0 : Fin 1) d) (ix1 d) (fun a => by
      match a with
      | ⟨0, _⟩ => show d.val = if (64 : ℕ) = 1 then 0 else d.val; simp)]

variable (m : (ℓ : Loc nD τ sig) → Buf (Elt Ideal) ℓ) (c : Dev nD)

theorem W14_main_arg2 : W14 m c (Proc.devRef .tc main_arg2) = m ((c : Thread nD τ).loc main_arg2) :=
  (W14_of_ne m c main_arg2 (by decide)).trans <| (W13_of_ne m c main_arg2 (by decide)).trans <|
  (W12_of_ne m c main_arg2 (by decide)).trans <|
  (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

theorem VT13_v35 : VT13 m c main_v35 = V11 m c (Proc.devRef .tc main_v35) :=
  (W13_of_ne m c main_v35 (by decide)).trans (W12_of_ne m c main_v35 (by decide))
theorem VT12_v34 : VT12 m c main_v34 = V11 m c (Proc.devRef .tc main_v34) :=
  W12_of_ne m c main_v34 (by decide)
theorem VT12_v36 : VT12 m c main_v36 = V11 m c (Proc.devRef .tc main_v36) :=
  W12_of_ne m c main_v36 (by decide)

/-- The gather's feature operand is the padded features times the weights. -/
theorem VT12_v37_apply (n : Fin 50176) (d : Fin 64) :
    rdE S50176x64 (VT12 m c main_v37) (ix2 n d)
      = ∑ k : Fin 64, rdE S50176x64 (V11 m c (Proc.devRef .tc main_v30)) (ix2 n k) * rdE S64x64 (V11 m c (Proc.devRef .tc main_arg1)) (ix2 k d) :=
  (congrFun (W12_arr m c 2) (ix2 n d)).trans (congrFun (final0 (VT11 m) c) (ix2 n d))

abbrev Final1 : Prop :=
  ∀ (V : Vals) (c : Dev nD) (e : Fin 850944) (d : Fin 64),
    rdE S850944x64 ((dat1 (F := Ideal) V c).arrAt 3 cfg1.N) (ix2 e d)
      = ∑ n : Fin 50176, (if BitVec.ofNat 32 n.val = rdW S1x850944 (V c main_v34) (ix2 0 e) then rdE S1x850944 (V c main_v36) (ix2 0 e) else 0)
          * rdE S50176x64 (V c main_v37) (ix2 n d)
abbrev Final2 : Prop :=
  ∀ (V : Vals) (c : Dev nD) (a : Fin 50176) (d : Fin 64),
    rdE S50176x64 ((dat2 (F := Ideal) V c).arrAt 2 cfg2.N) (ix2 a d)
      = ∑ e : Fin 850944, (if BitVec.ofNat 32 a.val = rdW S1x850944 (V c main_v35) (ix2 0 e) then (1 : EReal) else 0)
          * rdE S850944x64 (V c main_v38) (ix2 e d)

/-- The double one-hot sum over the padded slots collapses to the sum over the edges into the row, plus the bias. -/
theorem kernel_result_apply (hf1 : Final1) (hf2 : Final2)
    (hrow : ∀ e : Fin 850000, (rowOf (m ((c : Thread nD τ).loc main_arg3)) (ix1 e)).toNat < 50000) (r : Fin 50000) (d : Fin 64) :
    rdE S50000x64 (W15 m c (Proc.devRef .tc main_v43)) (ix2 r d)
      = (∑ e with colOf (m ((c : Thread nD τ).loc main_arg3)) (ix1 e) = BitVec.ofNat 32 r.val,
          (∑ k : Fin 64, rdE S50000x64 (m ((c : Thread nD τ).loc main_arg0)) (ix2 ⟨(rowOf (m ((c : Thread nD τ).loc main_arg3)) (ix1 e)).toNat, hrow e⟩ k)
              * rdE S64x64 (m ((c : Thread nD τ).loc main_arg1)) (ix2 k d))
            * (normOf (F := Ideal) (m ((c : Thread nD τ).loc main_arg3)) (ix1 e) : EReal))
        + rdE S64 (m ((c : Thread nD τ).loc main_arg2)) (ix1 d) := by
  show rdE S50000x64 (StableHlo.after hostOps3 (W14 m c) (Proc.devRef .tc main_v43)) (ix2 r d) = _
  rw [host3_apply, W14_main_arg2]
  refine congrArg₂ (· + ·) (Eq.trans ?_ (onehot_gather_scatter
    (fun n k => rdE S50000x64 (m ((c : Thread nD τ).loc main_arg0)) (ix2 n k))
    (fun k d => rdE S64x64 (m ((c : Thread nD τ).loc main_arg1)) (ix2 k d))
    (fun e => rowOf (m ((c : Thread nD τ).loc main_arg3)) (ix1 e))
    (fun e => colOf (m ((c : Thread nD τ).loc main_arg3)) (ix1 e))
    (fun e => (normOf (F := Ideal) (m ((c : Thread nD τ).loc main_arg3)) (ix1 e) : EReal)) hrow r d)) rfl
  refine ((congrFun (W14_arr m c 2) _).trans (hf2 (VT13 m) c _ d)).trans (Finset.sum_congr (M := EReal) rfl fun e _ => ?_)
  rw [VT13_v35, (id (V11_v35_apply m c e) : rdW S1x850944 (V11 m c (Proc.devRef .tc main_v35)) (ix2 (0 : Fin 1) e) = _)]
  refine congrArg₂ (· * ·) rfl (((congrFun (W13_arr m c 3) _).trans (hf1 (VT12 m) c e d)).trans (Finset.sum_congr (M := EReal) rfl fun n _ => ?_))
  rw [VT12_v34, VT12_v36, VT12_v37_apply,
    (id (V11_v34_apply m c e) : rdW S1x850944 (V11 m c (Proc.devRef .tc main_v34)) (ix2 (0 : Fin 1) e) = _),
    (id (V11_v36_apply m c e) : rdE S1x850944 (V11 m c (Proc.devRef .tc main_v36)) (ix2 (0 : Fin 1) e) = _)]
  refine congrArg₂ (· * ·) rfl (Finset.sum_congr rfl fun k _ => ?_)
  rw [(id (V11_v30_apply m c n k) : rdE S50176x64 (V11 m c (Proc.devRef .tc main_v30)) (ix2 n k) = _), V11_arg1]

end Cert.KernelIdeal.KVal

end
-- ==== Proof.Val.Reg1Val.lean ====
import proofs.«118320_j52716428591833_1_alg».proof.Proof.KI.Reg1
import proofs.«118320_j52716428591833_1_alg».proof.Proof.Val.Reg1Pay

noncomputable section

namespace Cert.KernelIdeal.RegVal

open Idealize.ShloMosaic Idealize.ShloMosaic.TcCoe Idealize.SL.Sem
open Idealize.ShloMosaic.ValueIdx
open Cert.KernelIdeal Cert.KernelIdeal.Gen
open Cert.KernelIdeal.Hand

section Pieces

variable (c : Dev nD) (i : grid1.Coords) (a2 : Memref sig .tc .vmem S1x1024 .i32) (h2 : a2.IsWhole) (a3 : Memref sig .tc .vmem S1x1024 .f32) (h3 : a3.IsWhole) (a4 : Memref sig .tc .vmem S1024x64 .bf16) (h4 : a4.IsWhole) (a5 : Memref sig .tc .vmem S1024x64 .bf16) (h5 : a5.IsWhole) (a6 : Memref sig .tc .vmem S1024x64 .f32) (h6 : a6.IsWhole) (x0 : Vec Ideal S1x1024 .i32) (x1 : Vec Ideal S1x1024 .f32) (x2 : Vec Ideal S1024x64 .bf16) (xs : Vec Ideal S1024x64 .f32)

theorem sout_B (hc0 : ¬cond1_0 i) (hc1 : ¬cond1_1 i) :
    sout1_B_0 c i a2 h2 a3 h3 a4 h4 a5 h5 a6 h6 hc0 hc1 x0 x1 x2 xs = k1_pay2 i x0 x1 x2 xs := by
  unfold sout1_B_0
  rw [View.read_writes_eq_canon _ _ _ (fun _ => scover1_B_0 ..)]
  unfold kernelRun1_B
  simp only [View.canon_unit_zero (S := S1024x64) hz2, View.readAt_eq_ld, h2.read_unread, h3.read_unread, h4.read_unread, h6.read_unread, View.ld_unit_zero (S := S1x1024) hz2, View.ld_unit_zero (S := S1024x64) hz2]

theorem sout_C (hc0 : ¬cond1_0 i) (hc1 : cond1_1 i) :
    sout1_C_0 c i a2 h2 a3 h3 a4 h4 a5 h5 a6 h6 hc0 hc1 x0 x1 x2 xs = k1_pay2 i x0 x1 x2 xs := by
  unfold sout1_C_0
  rw [View.read_writes_eq_canon _ _ _ (fun _ => scover1_C_0 ..)]
  unfold kernelRun1_C
  sl_unfold_words
  simp only [View.canon_unit_zero (S := S1024x64) hz2, View.readAt_eq_ld, h2.read_unread, h3.read_unread, h4.read_unread, h6.read_unread, View.ld_unit_zero (S := S1x1024) hz2, View.ld_unit_zero (S := S1024x64) hz2]

theorem out_C (hc0 : ¬cond1_0 i) (hc1 : cond1_1 i) :
    out1_C_3 c i a2 h2 a3 h3 a4 h4 a5 h5 a6 h6 hc0 hc1 x0 x1 x2 xs = k1_pay3 (k1_pay2 i x0 x1 x2 xs) := by
  unfold out1_C_3
  rw [View.read_writes_eq_canon _ _ _ (fun _ => cover1_C_3 ..)]
  unfold kernelRun1_C
  sl_unfold_words
  simp only [View.canon_unit_zero (S := S1024x64) hz2, View.readCov_unit_zero (S := S1024x64) _ hz2, View.readAt_eq_ld, h2.read_unread, h3.read_unread, h4.read_unread, h6.read_unread, View.ld_unit_zero (S := S1x1024) hz2, View.ld_unit_zero (S := S1024x64) hz2]

theorem sout_A (hc0 : cond1_0 i) (hc1 : ¬cond1_1 i) :
    sout1_A_0 c i a2 h2 a3 h3 a4 h4 a5 h5 a6 h6 hc0 hc1 x0 x1 x2 = k1_pay2 i x0 x1 x2 (k1_pay1 (F := Ideal)) := by
  unfold sout1_A_0
  rw [View.read_writes_eq_canon _ _ _ (fun _ => scover1_A_0 ..)]
  unfold kernelRun1_A
  sl_unfold_words
  simp only [View.canon_cons_unit_zero (S := S1024x64) hz2, View.readCov_unit_zero (S := S1024x64) _ hz2, View.readAt_eq_ld, h2.read_unread, h3.read_unread, h4.read_unread, h6.read_unread, View.ld_unit_zero (S := S1x1024) hz2, View.ld_unit_zero (S := S1024x64) hz2]

end Pieces

variable (V : Vals)

theorem iblk1_0_apply (c : Dev nD) (t : Fin cfg1.N) (q : Fin 1024) :
    (iblk1 V c 0 t : Vec Ideal S1x1024 .i32) (ix2 (0 : Fin 1) q)
      = (V c main_v34 : S1x850944.Idx → BitVec 32) (ix2 (0 : Fin 1) ⟨t.val / 49 * 1024 + q.val, by have := lt_N1 t; have := q.isLt; omega⟩) := by
  unfold iblk1
  rw [View.read_apply]
  show (V c main_v34 : S1x850944.Idx → BitVec 32) _ = _
  congr 1
  funext a
  apply Fin.ext
  match a with
  | ⟨0, _⟩ => show (cfg1.win 0).index t 0 * 1 + 1 * 0 = 0; rw [(index1_0 t).1]
  | ⟨1, _⟩ => show (cfg1.win 0).index t 1 * 1024 + 1 * q.val = t.val / 49 * 1024 + q.val; rw [(index1_0 t).2]; omega

theorem iblk1_1_apply (c : Dev nD) (t : Fin cfg1.N) (q : Fin 1024) :
    (iblk1 V c 1 t : Vec Ideal S1x1024 .f32) (ix2 (0 : Fin 1) q)
      = (V c main_v36 : S1x850944.Idx → EReal) (ix2 (0 : Fin 1) ⟨t.val / 49 * 1024 + q.val, by have := lt_N1 t; have := q.isLt; omega⟩) := by
  unfold iblk1
  rw [View.read_apply]
  show (V c main_v36 : S1x850944.Idx → EReal) _ = _
  congr 1
  funext a
  apply Fin.ext
  match a with
  | ⟨0, _⟩ => show (cfg1.win 1).index t 0 * 1 + 1 * 0 = 0; rw [(index1_1 t).1]
  | ⟨1, _⟩ => show (cfg1.win 1).index t 1 * 1024 + 1 * q.val = t.val / 49 * 1024 + q.val; rw [(index1_1 t).2]; omega

theorem iblk1_2_apply (c : Dev nD) (t : Fin cfg1.N) (r : Fin 1024) (f : Fin 64) :
    (iblk1 V c 2 t : Vec Ideal S1024x64 .bf16) (ix2 r f)
      = (V c main_v37 : S50176x64.Idx → EReal) (ix2 ⟨t.val % 49 * 1024 + r.val, by have := r.isLt; omega⟩ f) := by
  unfold iblk1
  rw [View.read_apply]
  show (V c main_v37 : S50176x64.Idx → EReal) _ = _
  congr 1
  funext a
  apply Fin.ext
  match a with
  | ⟨0, _⟩ => show (cfg1.win 2).index t 0 * 1024 + 1 * r.val = t.val % 49 * 1024 + r.val; rw [(index1_2 t).1]; omega
  | ⟨1, _⟩ => show (cfg1.win 2).index t 1 * 64 + 1 * f.val = f.val; rw [(index1_2 t).2]; omega

def rowAt (c : Dev nD) (e : Nat) : BitVec 32 :=
  if h : e < 850944 then (V c main_v34 : S1x850944.Idx → BitVec 32) (ix2 (0 : Fin 1) ⟨e, h⟩) else 0
def normAt (c : Dev nD) (e : Nat) : EReal :=
  if h : e < 850944 then (V c main_v36 : S1x850944.Idx → EReal) (ix2 (0 : Fin 1) ⟨e, h⟩) else 0
def featAt (c : Dev nD) (n : Nat) (f : Fin 64) : EReal :=
  if h : n < 50176 then (V c main_v37 : S50176x64.Idx → EReal) (ix2 ⟨n, h⟩ f) else 0

def term (c : Dev nD) (e : Nat) (f : Fin 64) (n : Nat) : EReal :=
  (if BitVec.ofNat 32 n = rowAt V c e then normAt V c e else 0) * featAt V c n f

def addend (c : Dev nD) (n : Nat) (j : S1024x64.Idx) : EReal :=
  ∑ r : Fin 1024, term V c (n / 49 * 1024 + (j 0).val) (j 1) (n % 49 * 1024 + r.val)

theorem pay2_blk (c : Dev nD) (t : Fin cfg1.N) (acc : Vec Ideal S1024x64 .f32) (j : S1024x64.Idx) :
    k1_pay2 (F := Ideal) (grid1.coords t) (iblk1 V c 0 t) (iblk1 V c 1 t) (iblk1 V c 2 t) acc j = acc j + addend V c t.val j := by
  obtain ⟨q, f, rfl⟩ : ∃ (q : Fin 1024) (f : Fin 64), j = ix2 q f := ⟨j 0, j 1, eq_ix2 j⟩
  rw [pay2_apply]
  unfold addend
  refine congrArg _ (Finset.sum_congr rfl fun r _ => ?_)
  have ht := lt_N1 t
  have hq := q.isLt
  have hr := r.isLt
  rw [iblk1_0_apply, iblk1_1_apply, iblk1_2_apply, coords1_1 t, node_word]
  unfold term rowAt normAt featAt
  rw [dif_pos (show t.val / 49 * 1024 + q.val < 850944 by omega), dif_pos (show t.val / 49 * 1024 + q.val < 850944 by omega),
    dif_pos (show t.val % 49 * 1024 + r.val < 50176 by omega)]

def stepAt (c : Dev nD) (n : Nat) (h : n < cfg1.N) (acc : Vec Ideal S1024x64 .f32) : Vec Ideal S1024x64 .f32 :=
  k1_pay2 (F := Ideal) (grid1.coords ⟨n, h⟩) (iblk1 V c 0 ⟨n, h⟩) (iblk1 V c 1 ⟨n, h⟩) (iblk1 V c 2 ⟨n, h⟩) acc

theorem acc_reset (c : Dev nD) (n : Nat) (h : n < cfg1.N) (hn : n % 49 = 0) : (outsAt1 V c n h).2 = stepAt V c n h (k1_pay1 (F := Ideal)) := by
  rw [outsAt1_A V c ⟨n, h⟩ hn (by show ¬n % 49 = 48; omega)]
  unfold stepAt
  dsimp only
  rw [sout_A]

theorem acc_step (c : Dev nD) (n : Nat) (h : n + 1 < cfg1.N) (hn : ¬(n + 1) % 49 = 0) :
    (outsAt1 V c (n + 1) h).2 = stepAt V c (n + 1) h (outsAt1 V c n (Nat.lt_of_succ_lt h)).2 := by
  unfold stepAt
  by_cases h1 : (n + 1) % 49 = 48
  · rw [outsAt1_C V c ⟨n + 1, h⟩ hn h1]
    dsimp only
    rw [sout_C]
    simp only [Nat.add_sub_cancel]
  · rw [outsAt1_B V c ⟨n + 1, h⟩ hn h1]
    dsimp only
    rw [sout_B]
    simp only [Nat.add_sub_cancel]

/-- After point `t` the accumulator holds the sum of the addends of the points of `t`'s run of 49 up to `t`. -/
theorem acc_eq (c : Dev nD) (t : Fin cfg1.N) (j : S1024x64.Idx) :
    (outsAt1 V c t.val t.isLt).2 j = ∑ s ∈ Finset.range (t.val % 49 + 1), addend V c (49 * (t.val / 49) + s) j :=
  acc_sum (ι := S1024x64.Idx) (β := EReal) (fun n h => (outsAt1 V c n h).2) 49 (by decide) (stepAt V c) _ (addend V c) pay1_apply
    (acc_reset V c) (acc_step V c) (fun n h acc i => pay2_blk V c ⟨n, h⟩ acc i) t.val t.isLt j

abbrev rowIds (c : Dev nD) : S1x850944.Idx → BitVec 32 := V c main_v34
abbrev norms (c : Dev nD) : S1x850944.Idx → EReal := V c main_v36
abbrev feats (c : Dev nD) : S50176x64.Idx → EReal := V c main_v37

def result1 (c : Dev nD) : S850944x64.Idx → EReal := fun j =>
  ∑ n : Fin 50176,
    (if BitVec.ofNat 32 n.val = rowIds V c (ix2 (0 : Fin 1) ⟨(j 0).val, (j 0).isLt⟩)
      then norms V c (ix2 (0 : Fin 1) ⟨(j 0).val, (j 0).isLt⟩) else 0)
      * feats V c (ix2 n ⟨(j 1).val, (j 1).isLt⟩)

theorem result1_apply (c : Dev nD) (e : Fin 850944) (f : Fin 64) :
    result1 V c (ix2 e f) = ∑ n : Fin 50176, term V c e.val f n.val := by
  unfold result1
  refine Finset.sum_congr rfl fun n _ => ?_
  unfold term rowAt normAt featAt
  rw [dif_pos e.isLt, dif_pos e.isLt, dif_pos n.isLt]

theorem out_eq_acc (c : Dev nD) (t : Fin cfg1.N) (h0 : ¬t.val % 49 = 0) (h48 : t.val % 49 = 48) :
    (outsAt1 V c t.val t.isLt).1 = (outsAt1 V c t.val t.isLt).2 := by
  rw [outsAt1_C V c t h0 h48]
  dsimp only
  rw [out_C, sout_C]
  rfl

theorem run_sum (c : Dev nD) (e : Nat) (j : S1024x64.Idx) :
    ∑ s ∈ Finset.range 49, addend V c (49 * e + s) j = ∑ n : Fin 50176, term V c (e * 1024 + (j 0).val) (j 1) n.val := by
  refine Eq.trans ?_ (sum_tiles 49 fun n => term V c (e * 1024 + (j 0).val) (j 1) n)
  refine Finset.sum_congr rfl fun s hs => ?_
  have hs' : s < 49 := Finset.mem_range.mp hs
  unfold addend
  rw [show (49 * e + s) / 49 = e by omega, show (49 * e + s) % 49 = s by omega]

theorem flushed_eq_of (c : Dev nD) (G : S850944x64.Idx → EReal)
    (hG : ∀ (e : Fin 850944) (f : Fin 64), G (ix2 e f) = ∑ n : Fin 50176, term V c e.val f n.val)
    (t : Fin cfg1.N) (hf : (cfg1.win 3).flush t = true) :
    (dat1 V c).flushed 3 t = ((cfg1.win 3).blk t).view.read (Elt Ideal) G := by
  have h48 : t.val % 49 = 48 := (flush1_3' t).mp hf
  have h0 : ¬t.val % 49 = 0 := by omega
  have ht := lt_N1 t
  funext y
  rw [View.read_apply]
  show (dat1 V c).after 3 t ((cfg1.win 3).xinj (grid1.coords t) y) = _
  rw [after1_3, out_eq_acc V c t h0 h48, acc_eq, h48, run_sum]
  have hy0 : (y 0).val < 1024 := (y 0).isLt
  have hy1 : (y 1).val < 64 := (y 1).isLt
  have hemb : ((cfg1.win 3).blk t).view.emb y
      = (ix2 (⟨t.val / 49 * 1024 + (y 0).val, by omega⟩ : Fin 850944) (⟨(y 1).val, hy1⟩ : Fin 64) : S850944x64.Idx) := by
    funext a; apply Fin.ext
    match a with
    | ⟨0, _⟩ => show (cfg1.win 3).index t 0 * 1024 + 1 * (y 0).val = t.val / 49 * 1024 + (y 0).val; rw [(index1_3 t).1]; omega
    | ⟨1, _⟩ => show (cfg1.win 3).index t 1 * 64 + 1 * (y 1).val = (y 1).val; rw [(index1_3 t).2]; omega
  show _ = G (((cfg1.win 3).blk t).view.emb y)
  rw [hemb, hG]
  rfl

theorem flushed_eq (c : Dev nD) (t : Fin cfg1.N) (hf : (cfg1.win 3).flush t = true) :
    (dat1 V c).flushed 3 t = ((cfg1.win 3).blk t).view.read (Elt Ideal) (result1 V c) :=
  flushed_eq_of V c (result1 V c) (result1_apply V c) t hf

theorem cover1 (i : S850944x64.Idx) :
    ∃ t : Fin cfg1.N, (cfg1.win 3).flush t = true ∧ i ∈ ((cfg1.win 3).blk t).view.set := by
  have hi0 : (i 0).val < 850944 := (i 0).isLt
  have hi1 : (i 1).val < 64 := (i 1).isLt
  have hN : cfg1.N = 40719 := N_1
  let t : Fin cfg1.N := ⟨49 * ((i 0).val / 1024) + 48, by rw [hN]; omega⟩
  have ht : t.val = 49 * ((i 0).val / 1024) + 48 := rfl
  obtain ⟨e0, e1⟩ := index1_3 t
  refine ⟨t, (flush1_3' t).mpr (by rw [ht]; omega), ?_⟩
  show i ∈ ((View.whole main_v38).slice (win1_3.rect t)).set
  rw [View.set_slice_whole, Rect.mem_set_unit]
  intro a
  match a with
  | ⟨0, _⟩ =>
    show (cfg1.win 3).index t (0 : Fin 2) * 1024 ≤ (i 0).val ∧ (i 0).val < (cfg1.win 3).index t (0 : Fin 2) * 1024 + 1024
    rw [e0, ht]; omega
  | ⟨1, _⟩ =>
    show (cfg1.win 3).index t (1 : Fin 2) * 64 ≤ (i 1).val ∧ (i 1).val < (cfg1.win 3).index t (1 : Fin 2) * 64 + 64
    rw [e1]; omega

theorem final1 (c : Dev nD) : (dat1 (F := Ideal) V c).arrAt 3 cfg1.N = result1 V c :=
  (dat1 V c).arrAt_eq_of_cover 3 (result1 V c) (flushed_eq V c) cover1

end Cert.KernelIdeal.RegVal

end
-- ==== Proof.Val.Reg2Val.lean ====
import proofs.«118320_j52716428591833_1_alg».proof.Proof.KI.Reg2
import proofs.«118320_j52716428591833_1_alg».proof.Proof.Val.Reg1Pay

noncomputable section

namespace Cert.KernelIdeal.RegVal

open Idealize.ShloMosaic Idealize.ShloMosaic.TcCoe Idealize.SL.Sem
open Idealize.ShloMosaic.ValueIdx
open Cert.KernelIdeal Cert.KernelIdeal.Gen Cert.KernelIdeal.Hand

namespace R2

section Pieces

variable {F : FTy → Type} [FloatOps F] (c : Dev nD) (i : grid2.Coords) (a2 : Memref sig .tc .vmem S1x1024 .i32) (h2 : a2.IsWhole) (a3 : Memref sig .tc .vmem S1024x64 .bf16) (h3 : a3.IsWhole) (a4 : Memref sig .tc .vmem S1024x64 .f32) (h4 : a4.IsWhole) (a5 : Memref sig .tc .vmem S1024x64 .f32) (h5 : a5.IsWhole) (x0 : Vec F S1x1024 .i32) (x1 : Vec F S1024x64 .bf16) (xs : Vec F S1024x64 .f32)

theorem sout_B (hc0 : ¬cond2_0 i) (hc1 : ¬cond2_1 i) :
    sout2_B_0 c i a2 h2 a3 h3 a4 h4 a5 h5 hc0 hc1 x0 x1 xs = k2_pay2 i x0 x1 xs := by
  unfold sout2_B_0
  rw [View.read_writes_eq_canon _ _ _ (fun _ => scover2_B_0 ..)]
  unfold kernelRun2_B
  simp only [View.canon_unit_zero (S := S1024x64) hz2, View.readAt_eq_ld, h2.read_unread, h3.read_unread, h5.read_unread, View.ld_unit_zero (S := S1024x64) hz2, View.ld_unit_zero (S := S1x1024) hz2]

theorem sout_C (hc0 : ¬cond2_0 i) (hc1 : cond2_1 i) :
    sout2_C_0 c i a2 h2 a3 h3 a4 h4 a5 h5 hc0 hc1 x0 x1 xs = k2_pay2 i x0 x1 xs := by
  unfold sout2_C_0
  rw [View.read_writes_eq_canon _ _ _ (fun _ => scover2_C_0 ..)]
  unfold kernelRun2_C
  sl_unfold_words
  simp only [View.canon_unit_zero (S := S1024x64) hz2, View.readAt_eq_ld, h2.read_unread, h3.read_unread, h5.read_unread, View.ld_unit_zero (S := S1024x64) hz2, View.ld_unit_zero (S := S1x1024) hz2]

theorem sout_A (hc0 : cond2_0 i) (hc1 : ¬cond2_1 i) :
    sout2_A_0 c i a2 h2 a3 h3 a4 h4 a5 h5 hc0 hc1 x0 x1 = k2_pay2 i x0 x1 (k2_pay1 (F := F)) := by
  unfold sout2_A_0
  rw [View.read_writes_eq_canon _ _ _ (fun _ => scover2_A_0 ..)]
  unfold kernelRun2_A
  sl_unfold_words
  simp only [View.canon_cons_unit_zero (S := S1024x64) hz2, View.readCov_unit_zero (S := S1024x64) _ hz2, View.readAt_eq_ld, h2.read_unread, h3.read_unread, View.ld_unit_zero (S := S1024x64) hz2, View.ld_unit_zero (S := S1x1024) hz2]

theorem out_C (hc0 : ¬cond2_0 i) (hc1 : cond2_1 i) :
    out2_C_2 c i a2 h2 a3 h3 a4 h4 a5 h5 hc0 hc1 x0 x1 xs = k2_pay2 i x0 x1 xs := by
  unfold out2_C_2
  rw [View.read_writes_eq_canon _ _ _ (fun _ => cover2_C_2 ..)]
  unfold kernelRun2_C
  sl_unfold_words
  simp only [View.canon_unit_zero (S := S1024x64) hz2, View.readCov_unit_zero (S := S1024x64) _ hz2, View.readAt_eq_ld, h2.read_unread, h3.read_unread, h5.read_unread, View.ld_unit_zero (S := S1024x64) hz2, View.ld_unit_zero (S := S1x1024) hz2]

end Pieces

def hot (a b : BitVec 32) : EReal := if a = b then 1 else 0

theorem toInt_bit : ∀ b : BitVec 1, (b.setWidth 32).toInt = (b.toNat : ℤ) := by decide

theorem sitofp_bit (x y : BitVec 32) :
    (FloatOps.sitofp (F := Ideal) .f32 ((IntOp.cmpi .eq x y).setWidth 32) : EReal) = hot x y := by
  have e : (FloatOps.sitofp (F := Ideal) .f32 ((IntOp.cmpi .eq x y).setWidth 32) : EReal)
      = (((((IntOp.cmpi .eq x y).setWidth 32).toInt : ℤ) : ℝ) : EReal) := rfl
  rw [e, toInt_bit]
  unfold IntOp.cmpi hot
  by_cases h : x = y
  · simp [h]
  · simp [h]

def oneHot (i : grid2.Coords) (v7 : Vec Ideal S1x1024 .i32) : FVec Ideal S1024x1024 .bf16 :=
  truncf .bf16 (sitofp .f32 (extui 32 (cmpi .eq (addi (broadcast S1024x1024 (Scalar.muli (BitVec.ofNat 32 (i 0).val) 1024#32)) (iota .tc S1024x1024 32 [0] iota_S1024x1024_d0_w32)) (broadcastTo S1024x1024 (shapeCast S1x1024 v7 shapeCasts_S1x1024_S1x1024) broadcasts_S1x1024_S1024x1024)) natLt_1_32)) bitsLt_bf16_f32

theorem oneHot_apply (i : grid2.Coords) (v7 : Vec Ideal S1x1024 .i32) (p : S1024x1024.Idx) :
    oneHot i v7 p = hot (BitVec.ofNat 32 ((i 0).val * 1024 + (p 0).val)) (v7 (ix2 0 (p 1))) := by
  unfold oneHot
  rw [truncf_apply, sitofp_apply, extui_apply]
  have hb : broadcastTo S1024x1024 (shapeCast S1x1024 v7 shapeCasts_S1x1024_S1x1024) broadcasts_S1x1024_S1024x1024 p = v7 (ix2 0 (p 1)) := by
    rw [shapeCast_self]
    exact broadcastTo_apply v7 _ p (ix2 0 (p 1)) (fun a => match a with | ⟨0, _⟩ => rfl | ⟨1, _⟩ => rfl)
  have ha : addi (broadcast S1024x1024 (Scalar.muli (BitVec.ofNat 32 (i 0).val) 1024#32)) (iota .tc S1024x1024 32 [0] iota_S1024x1024_d0_w32) p
      = BitVec.ofNat 32 ((i 0).val * 1024 + (p 0).val) := by
    show IntOp.addi (broadcast S1024x1024 (Scalar.muli (BitVec.ofNat 32 (i 0).val) 1024#32) p) (iota .tc S1024x1024 32 [0] iota_S1024x1024_d0_w32 p) = _
    rw [broadcast_apply, iota_single_apply]
    exact node_word _ _
  show FloatOps.sitofp (F := Ideal) .f32 ((IntOp.cmpi .eq (addi _ _ p) (broadcastTo _ _ _ p)).setWidth 32) = _
  rw [ha, hb, sitofp_bit]

theorem pay2_eq (i : grid2.Coords) (v7 : Vec Ideal S1x1024 .i32) (v14 : Vec Ideal S1024x64 .bf16) (v17 : Vec Ideal S1024x64 .f32) :
    k2_pay2 i v7 v14 v17 = addf v17 (matmul (φ₁ := .bf16) (φ₂ := .bf16) dot_S1024x1024_S1024x64_S1024x64_1_0_0_1_n_n none (oneHot i v7) v14 (constant S1024x64 .f32 0x00000000#32)) := by
  unfold k2_pay2 oneHot
  simp only [shapeCast_self]
  try rfl

theorem pay2_apply (i : grid2.Coords) (v7 : Vec Ideal S1x1024 .i32) (v14 : Vec Ideal S1024x64 .bf16) (v17 : Vec Ideal S1024x64 .f32) (y : S1024x64.Idx) :
    k2_pay2 i v7 v14 v17 y = v17 y + ∑ k : Fin 1024, hot (BitVec.ofNat 32 ((i 0).val * 1024 + (y 0).val)) (v7 (ix2 0 k)) * v14 (ix2 k (y 1)) := by
  obtain ⟨a, b, rfl⟩ : ∃ (a : Fin 1024) (b : Fin 64), y = ix2 a b := ⟨y 0, y 1, eq_ix2 y⟩
  rw [pay2_eq, addf_apply, matmul1_apply]
  refine congrArg _ (Finset.sum_congr rfl fun k _ => ?_)
  rw [oneHot_apply]

variable (V : Vals)

def stepAt (c : Dev nD) (n : ℕ) (h : n < cfg2.N) (acc : Vec Ideal S1024x64 .f32) : Vec Ideal S1024x64 .f32 :=
  k2_pay2 (grid2.coords ⟨n, h⟩) (iblk2 V c 0 ⟨n, h⟩) (iblk2 V c 1 ⟨n, h⟩) acc

theorem scratch_reset (c : Dev nD) (n : ℕ) (h : n < cfg2.N) (h0 : n % 831 = 0) :
    (outsAt2 V c n h).2 = stepAt V c n h (k2_pay1 (F := Ideal)) := by
  have h1 : ¬n % 831 = 830 := by omega
  rw [outsAt2_A V c ⟨n, h⟩ h0 h1]
  dsimp only
  rw [sout_A]
  rfl

theorem scratch_step (c : Dev nD) (n : ℕ) (h : n + 1 < cfg2.N) (h0 : ¬(n + 1) % 831 = 0) :
    (outsAt2 V c (n + 1) h).2 = stepAt V c (n + 1) h (outsAt2 V c n (Nat.lt_of_succ_lt h)).2 := by
  by_cases h1 : (n + 1) % 831 = 830
  · rw [outsAt2_C V c ⟨n + 1, h⟩ h0 h1]
    dsimp only
    rw [sout_C]
    rfl
  · rw [outsAt2_B V c ⟨n + 1, h⟩ h0 h1]
    dsimp only
    rw [sout_B]
    rfl

theorem out_eq_scratch (c : Dev nD) (t : Fin cfg2.N) (h1 : t.val % 831 = 830) :
    (outsAt2 V c t.val t.isLt).1 = (outsAt2 V c t.val t.isLt).2 := by
  have h0 : ¬t.val % 831 = 0 := by omega
  rw [outsAt2_C V c t h0 h1]
  dsimp only
  rw [out_C, sout_C]

theorem iblk0_at (c : Dev nD) (t : Fin cfg2.N) (s : ℕ) (hs : t.val % 831 = s) (k : Fin 1024) (hb : 1024 * s + k.val < 850944) :
    (iblk2 V c 0 t : Vec Ideal S1x1024 .i32) (ix2 0 k) = (V c main_v35 : S1x850944.Idx → BitVec 32) (ix2 0 ⟨1024 * s + k.val, hb⟩) := by
  subst hs
  unfold iblk2
  rw [View.read_apply]
  show V c main_v35 _ = V c main_v35 _
  congr 1
  obtain ⟨e0, e1⟩ := index2_0 t
  funext a
  apply Fin.ext
  match a with
  | ⟨0, _⟩ => show (cfg2.win 0).index t (0 : Fin 2) * 1 + 1 * 0 = 0; rw [e0]
  | ⟨1, _⟩ => show (cfg2.win 0).index t (1 : Fin 2) * 1024 + 1 * k.val = 1024 * (t.val % 831) + k.val; rw [e1]; omega

theorem iblk1_at (c : Dev nD) (t : Fin cfg2.N) (s : ℕ) (hs : t.val % 831 = s) (k : Fin 1024) (l : Fin 64) (hb : 1024 * s + k.val < 850944) :
    (iblk2 V c 1 t : Vec Ideal S1024x64 .bf16) (ix2 k l) = (V c main_v38 : S850944x64.Idx → EReal) (ix2 ⟨1024 * s + k.val, hb⟩ l) := by
  subst hs
  unfold iblk2
  rw [View.read_apply]
  show V c main_v38 _ = V c main_v38 _
  congr 1
  obtain ⟨e0, e1⟩ := index2_1 t
  funext a
  apply Fin.ext
  match a with
  | ⟨0, _⟩ => show (cfg2.win 1).index t (0 : Fin 2) * 1024 + 1 * k.val = 1024 * (t.val % 831) + k.val; rw [e0]; omega
  | ⟨1, _⟩ => show (cfg2.win 1).index t (1 : Fin 2) * 64 + 1 * l.val = l.val; rw [e1]; omega

def contrib (c : Dev nD) (q : ℕ) (n : ℕ) (y : S1024x64.Idx) : EReal :=
  if h : n < cfg2.N then
    ∑ k : Fin 1024, hot (BitVec.ofNat 32 (q * 1024 + (y 0).val)) ((iblk2 V c 0 ⟨n, h⟩ : Vec Ideal S1x1024 .i32) (ix2 0 k))
      * (iblk2 V c 1 ⟨n, h⟩ : Vec Ideal S1024x64 .bf16) (ix2 k (y 1))
  else 0

theorem stepAt_apply (c : Dev nD) (n : ℕ) (h : n < cfg2.N) (acc : Vec Ideal S1024x64 .f32) (y : S1024x64.Idx) :
    stepAt V c n h acc y = acc y + contrib V c (n / 831) n y := by
  unfold stepAt contrib
  rw [dif_pos h, pay2_apply, coords2_0 ⟨n, h⟩]

def G (c : Dev nD) : S50176x64.Idx → EReal := fun j =>
  ∑ e : Fin 850944, hot (BitVec.ofNat 32 (j 0).val) ((V c main_v35 : S1x850944.Idx → BitVec 32) (ix2 0 e))
    * (V c main_v38 : S850944x64.Idx → EReal) (ix2 e ⟨(j 1).val, idx2_lt1 j⟩)

theorem sum_tiles (T : Fin 850944 → EReal) :
    ∑ s : Fin 831, ∑ k : Fin 1024, T ⟨1024 * s.val + k.val, by have := s.isLt; have := k.isLt; omega⟩ = ∑ e : Fin 850944, T e := by
  rw [← Equiv.sum_comp (finProdFinEquiv : Fin 831 × Fin 1024 ≃ Fin 850944) T, Fintype.sum_prod_type]
  refine Finset.sum_congr rfl fun s _ => Finset.sum_congr rfl fun k _ => ?_
  congr 1
  apply Fin.ext
  show 1024 * s.val + k.val = k.val + 1024 * s.val
  omega

theorem last_val (c : Dev nD) (t : Fin cfg2.N) (h1 : t.val % 831 = 830) (y : S1024x64.Idx) (j : S50176x64.Idx)
    (hj0 : (j 0).val = t.val / 831 * 1024 + (y 0).val) (hj1 : (j 1).val = (y 1).val) :
    (outsAt2 V c t.val t.isLt).2 y = G V c j := by
  have hN : t.val < 40719 := lt_of_lt_of_eq t.isLt (show cfg2.N = 40719 from N_2)
  have hNe : cfg2.N = 40719 := N_2
  rw [acc_sum (ι := S1024x64.Idx) (β := EReal) (fun n h => (outsAt2 V c n h).2) 831 (by decide) (stepAt V c) _ (fun n => contrib V c (n / 831) n)
    pay1_apply (scratch_reset V c) (scratch_step V c) (stepAt_apply V c) t.val t.isLt y, h1, Finset.sum_range]
  unfold G
  rw [← sum_tiles]
  refine Finset.sum_congr rfl fun s _ => ?_
  have hs := s.isLt
  have hlt : 831 * (t.val / 831) + s.val < cfg2.N := lt_of_lt_of_eq (by omega) hNe.symm
  rw [show (831 * (t.val / 831) + s.val) / 831 = t.val / 831 by omega]
  unfold contrib
  rw [dif_pos hlt]
  refine Finset.sum_congr rfl fun k _ => ?_
  have hk := k.isLt
  rw [iblk0_at V c ⟨831 * (t.val / 831) + s.val, hlt⟩ s.val (by show (831 * (t.val / 831) + s.val) % 831 = s.val; omega) k (by omega),
    iblk1_at V c ⟨831 * (t.val / 831) + s.val, hlt⟩ s.val (by show (831 * (t.val / 831) + s.val) % 831 = s.val; omega) k (y 1) (by omega),
    ← hj0]
  congr 2
  exact Shape.idx_ext₂ rfl hj1.symm

theorem flushed_eq_of (c : Dev nD) (Gv : S50176x64.Idx → EReal) (hG : ∀ j, Gv j = G V c j)
    (t : Fin cfg2.N) (hf : (cfg2.win 2).flush t = true) :
    (dat2 V c).flushed 2 t = ((cfg2.win 2).blk t).view.read (Elt Ideal) Gv := by
  have h1 := (flush2_2' t).mp hf
  obtain ⟨e0, e1⟩ := index2_2 t
  funext y
  rw [View.read_apply]
  show (dat2 V c).after 2 t ((cfg2.win 2).xinj (grid2.coords t) y) = _
  rw [after2_2, out_eq_scratch V c t h1]
  have hj0 : ((((cfg2.win 2).blk t).view.emb y) 0).val = t.val / 831 * 1024 + (((cfg2.win 2).xinj (grid2.coords t) y) 0).val := by
    show (cfg2.win 2).index t (0 : Fin 2) * 1024 + 1 * (y 0).val = t.val / 831 * 1024 + (y 0).val
    rw [e0, Nat.one_mul]
  have hj1 : ((((cfg2.win 2).blk t).view.emb y) 1).val = (((cfg2.win 2).xinj (grid2.coords t) y) 1).val := by
    show (cfg2.win 2).index t (1 : Fin 2) * 64 + 1 * (y 1).val = (y 1).val
    rw [e1, Nat.zero_mul, Nat.zero_add, Nat.one_mul]
  rw [last_val V c t h1 ((cfg2.win 2).xinj (grid2.coords t) y) (((cfg2.win 2).blk t).view.emb y) hj0 hj1, ← hG]
  rfl

theorem flushed_eq (c : Dev nD) (t : Fin cfg2.N) (hf : (cfg2.win 2).flush t = true) :
    (dat2 V c).flushed 2 t = ((cfg2.win 2).blk t).view.read (Elt Ideal) (G V c) :=
  flushed_eq_of V c (G V c) (fun _ => rfl) t hf

theorem cover2 (i : S50176x64.Idx) : ∃ t : Fin cfg2.N, (cfg2.win 2).flush t = true ∧ i ∈ ((cfg2.win 2).blk t).view.set := by
  have hN : cfg2.N = 40719 := N_2
  have hi0 : (i 0).val < 50176 := idx2_lt0 i
  have hi1 : (i 1).val < 64 := idx2_lt1 i
  let t : Fin cfg2.N := ⟨831 * ((i 0).val / 1024) + 830, by rw [hN]; omega⟩
  have ht : t.val = 831 * ((i 0).val / 1024) + 830 := rfl
  obtain ⟨e0, e1⟩ := index2_2 t
  refine ⟨t, (flush2_2' t).mpr (by rw [ht]; omega), ?_⟩
  show i ∈ ((View.whole main_v39).slice (win2_2.rect t)).set
  rw [View.set_slice_whole, Rect.mem_set_unit]
  intro a
  match a with
  | ⟨0, _⟩ =>
    show (cfg2.win 2).index t (0 : Fin 2) * 1024 ≤ (i 0).val ∧ (i 0).val < (cfg2.win 2).index t (0 : Fin 2) * 1024 + 1024
    rw [e0, ht]; omega
  | ⟨1, _⟩ =>
    show (cfg2.win 2).index t (1 : Fin 2) * 64 ≤ (i 1).val ∧ (i 1).val < (cfg2.win 2).index t (1 : Fin 2) * 64 + 64
    rw [e1]; omega

end R2

theorem final2 (V : Vals) (c : Dev nD) :
    (dat2 (F := Ideal) V c).arrAt 2 cfg2.N = R2.G V c :=
  (dat2 V c).arrAt_eq_of_cover 2 (R2.G V c) (R2.flushed_eq V c) R2.cover2

end Cert.KernelIdeal.RegVal

end
-- ==== Proof.Val.PreRange.lean ====
import proofs.«118320_j52716428591833_1_alg».proof.Pre_finite_inputs
import Idealize.ShloMosaic.PureOps.Ideal
import Idealize.ShloMosaic.Lib.ReduceAll
import Idealize.ShloMosaic.Lib.StableHlo.Predicate
import Idealize.ShloMosaic.Lib.ValueLayout
import Idealize.ShloMosaic.Lib.WordArith

noncomputable section

namespace Cert.Gcn

open Idealize.ShloMosaic Idealize.ShloMosaic.ValueIdx
open Cert.Pre_finite_inputs

variable [Cert.Pre_finite_inputs.Facts]

-- The precondition's last two tests say every word of the table's row 0 is at least 0 and below 50000, signed.
theorem row_range {F : FTy → Type} [FloatOps F] (a0 : FVec F Cert.Pre_finite_inputs.S50000x64 .f32)
    (a1 : FVec F Cert.Pre_finite_inputs.S64x64 .f32) (a2 : FVec F Cert.Pre_finite_inputs.S64 .f32)
    (ei : IVec Cert.Pre_finite_inputs.S2x800000 32)
    (h : Cert.Pre_finite_inputs.fn (F := F) a0 a1 a2 ei = fun _ => 1#1) :
    ∀ e : Fin 800000, (ei (ValueIdx.ix2 (0 : Fin 2) e)).toNat < 50000 := by
  intro e
  have h' := congrFun h ix0
  dsimp only [Cert.Pre_finite_inputs.fn, Cert.Pre_finite_inputs.fn_part1] at h'
  obtain ⟨h12, hlt⟩ := IntOp.andi_eq_one.1 h'
  obtain ⟨-, hge⟩ := IntOp.andi_eq_one.1 h12
  have hge' := Host.reduce_andi_all _ _ _ _ _ hge (ix1 e)
  have hlt' := Host.reduce_andi_all _ _ _ _ _ hlt (ix1 e)
  rw [← (shapeCast_1a_a_apply _ Facts.shapeCasts_S1x800000_S800000 e).trans
    (slice2_axis0_apply 0 ei Facts.slices_S2x800000_S1x800000_0_0 0 e 0 rfl)]
  exact WordArith.toNat_lt_of_zero_sle_of_slt_ofNat _ 50000 (by decide)
    ((StableHlo.Predicate.ofBool_eq_one_iff _).1 hge') ((StableHlo.Predicate.ofBool_eq_one_iff _).1 hlt')

end Cert.Gcn

end
-- ==== Proof.Val.PreRow.lean ====
import proofs.«118320_j52716428591833_1_alg».proof.Defs
import proofs.«118320_j52716428591833_1_alg».proof.Proof.Gen.Pre_finite_inputs
import proofs.«118320_j52716428591833_1_alg».proof.Proof.Val.PreRange
import proofs.«118320_j52716428591833_1_alg».proof.Proof.Val.KernelHost

noncomputable section

namespace Cert.Gcn

open Idealize.ShloMosaic Idealize.SL.Sem

-- The source list is the table's row 0, in range by the precondition, then the self loops.
theorem hrow_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    ∀ e : Fin 850000,
      (rowOf (m ((c.tc : Thread Cert.KernelIdeal.nD Cert.KernelIdeal.τ).loc Cert.KernelIdeal.main_arg3)) (ValueIdx.ix1 e)).toNat < 50000 :=
  Cert.KernelIdeal.KVal.rowOf_lt _ (row_range (F := Ideal) _ _ _ _ (hpre c))

end Cert.Gcn

end
-- ==== Proof.Val.Bridge.lean ====
import proofs.«118320_j52716428591833_1_alg».proof.Proof.Val.RefVal
import proofs.«118320_j52716428591833_1_alg».proof.Proof.Val.KernelVal
import proofs.«118320_j52716428591833_1_alg».proof.Proof.Val.Reg1Val
import proofs.«118320_j52716428591833_1_alg».proof.Proof.Val.Reg2Val
import proofs.«118320_j52716428591833_1_alg».proof.Proof.Val.PreRow

noncomputable section

namespace Cert.Bridge

open Idealize.ShloMosaic Idealize.ShloMosaic.TcCoe Idealize.SL.Sem Idealize.ShloMosaic.ValueIdx Cert.Gcn
/-- Both results are the sum over the edges into row `r` of the edge's weight times its source's transformed feature, plus the bias. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W15 m c (Proc.devRef .tc Cert.KernelIdeal.main_v43), Cert.KernelIdeal.Hand.run_val m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3⟩ := hagree c
  have hrow := Cert.Gcn.hrow_of_pre m hpre c
  funext i
  obtain ⟨r, d, rfl⟩ : ∃ (r : Fin 50000) (d : Fin 64), i = ix2 r d := ⟨i 0, i 1, eq_ix2 i⟩
  refine (Cert.ReferenceIdeal.RefValue.ref_result_apply m' c (fun e => by have := hrow e; rw [← h3] at this; exact this) r d).trans ?_
  refine Eq.trans ?_ (Cert.KernelIdeal.KVal.kernel_result_apply m c
    (fun V c e d => congrFun (Cert.KernelIdeal.RegVal.final1 V c) (ix2 e d))
    (fun V c a d => congrFun (Cert.KernelIdeal.RegVal.final2 V c) (ix2 a d)) hrow r d).symm
  simp only [Cert.ReferenceIdeal.RefValue.argFeat, Cert.ReferenceIdeal.RefValue.argW, Cert.ReferenceIdeal.RefValue.argB,
    Cert.ReferenceIdeal.RefValue.argEi, Cert.KernelIdeal.KVal.rdE, h0, h1, h2, h3]

end Cert.Bridge

end
-- ==== Proof.lean ====
import proofs.«118320_j52716428591833_1_alg».proof.Defs
import proofs.«118320_j52716428591833_1_alg».proof.Proof.Gen.Kernel
import proofs.«118320_j52716428591833_1_alg».proof.Proof.Gen.KernelIdeal
import proofs.«118320_j52716428591833_1_alg».proof.Proof.Gen.ReferenceIdeal
import proofs.«118320_j52716428591833_1_alg».proof.Proof.Gen.Pre_finite_inputs
import proofs.«118320_j52716428591833_1_alg».proof.Proof.K.RunAll
import proofs.«118320_j52716428591833_1_alg».proof.Proof.KI.RunAll
import proofs.«118320_j52716428591833_1_alg».proof.Proof.Val.RefRun
import proofs.«118320_j52716428591833_1_alg».proof.Proof.Val.Bridge

namespace Cert.Proof

open Idealize.ShloMosaic Idealize.SL.Sem

/-- The three frames (the reference's is its run with the result dropped), the empty ledger, and the value bridge. -/
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, fun m ρ _ => Cert.KernelIdeal.Hand.frame m ρ,
    fun m ρ _ => (θ_run Cert.ReferenceIdeal.defs _ _).mono (fun _ h c => (h c).2) (Cert.ReferenceIdeal.ValueP.run (F := Ideal) m ρ),
    trivial, Cert.Bridge.algebraic⟩

end Cert.Proof
